-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x512 : Shape := ⟨2, ![8192, 512]⟩
abbrev S128x512 : Shape := ⟨2, ![128, 512]⟩
abbrev S128 : Shape := ⟨1, ![128]⟩
abbrev S64x128 : Shape := ⟨2, ![64, 128]⟩
abbrev S64 : Shape := ⟨1, ![64]⟩
abbrev S1024 : Shape := ⟨1, ![1024]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg6 : IVec S1024 32) (main_v32 : IVec S_ 1) (main_c_12 : IVec S_ 32) : IVec S_ 1 :=
  let main_v33 : IVec S1024 32 := broadcastInDim S1024 ![] bcast_S_S1024 main_c_12
  let main_v34 : IVec S1024 1 := cmpi .slt main_arg6 main_v33
  let main_c_13 : IVec S_ 1 := constantI S_ 1 1#1
  let main_v35 : IVec S_ 1 := (fun x v => Host.reduce IntOp.andi x v reducesTo_S1024_S_d0 h_S_) main_v34 main_c_13
  let main_v36 : IVec S_ 1 := andi main_v32 main_v35
  main_v36

def fn_part1 {F : FTy → Type} [FloatOps F] (main_arg4 : FVec F S64x128 .f32) (main_arg5 : FVec F S64 .f32) (main_arg6 : IVec S1024 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_c_10 : IVec S_ 32 := constantI S_ 32 0#32
  let main_v29 : IVec S1024 32 := broadcastInDim S1024 ![] bcast_S_S1024 main_c_10
  let main_v30 : IVec S1024 1 := cmpi .sge main_arg6 main_v29
  let main_c_11 : IVec S_ 1 := constantI S_ 1 1#1
  let main_v31 : IVec S_ 1 := (fun x v => Host.reduce IntOp.andi x v reducesTo_S1024_S_d0 h_S_) main_v30 main_c_11
  let main_v32 : IVec S_ 1 := andi main_v28 main_v31
  let main_c_12 : IVec S_ 32 := constantI S_ 32 8192#32
  fn_part2 (F := F) main_arg6 main_v32 main_c_12

def fn {F : FTy → Type} [FloatOps F] (main_arg0 : FVec F S8192x8192 .f32) (main_arg1 : FVec F S8192x512 .f32) (main_arg2 : FVec F S128x512 .f32) (main_arg3 : FVec F S128 .f32) (main_arg4 : FVec F S64x128 .f32) (main_arg5 : FVec F S64 .f32) (main_arg6 : IVec S1024 32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S8192x8192 : Shape := ⟨2, ![8192, 8192]⟩
abbrev S8192x512 : Shape := ⟨2, ![8192, 512]⟩
abbrev S128x512 : Shape := ⟨2, ![128, 512]⟩
abbrev S128 : Shape := ⟨1, ![128]⟩
abbrev S64x128 : Shape := ⟨2, ![64, 128]⟩
abbrev S64 : Shape := ⟨1, ![64]⟩
abbrev S1024 : Shape := ⟨1, ![1024]⟩
abbrev S8192x1 : Shape := ⟨2, ![8192, 1]⟩
abbrev S1024x1024 : Shape := ⟨2, ![1024, 1024]⟩
abbrev S1024x1 : Shape := ⟨2, ![1024, 1]⟩
abbrev S1x1024 : Shape := ⟨2, ![1, 1024]⟩
abbrev S1x8192 : Shape := ⟨2, ![1, 8192]⟩
abbrev S1x128 : Shape := ⟨2, ![1, 128]⟩
abbrev S1x64 : Shape := ⟨2, ![1, 64]⟩
abbrev S8192x128 : Shape := ⟨2, ![8192, 128]⟩
abbrev S2048x512 : Shape := ⟨2, ![2048, 512]⟩
abbrev S2048x128 : Shape := ⟨2, ![2048, 128]⟩
abbrev S512x128 : Shape := ⟨2, ![512, 128]⟩
abbrev S1024x128 : Shape := ⟨2, ![1024, 128]⟩
abbrev S8192x64 : Shape := ⟨2, ![8192, 64]⟩
abbrev S2048x64 : Shape := ⟨2, ![2048, 64]⟩
abbrev S128x64 : Shape := ⟨2, ![128, 64]⟩
abbrev S1024x64 : Shape := ⟨2, ![1024, 64]⟩
abbrev S_ : Shape := ⟨0, ![]⟩
abbrev S1 : Shape := ⟨1, ![1]⟩
abbrev S1x1 : Shape := ⟨2, ![1, 1]⟩

abbrev nBuf : Space → Nat
  | .hbm => 38
  | .vmem => 39
  | .smem => 0
  | _ => 0

abbrev bufTy : (tb : Table) → Fin (tcTables nBuf tb) → BufTy
  | .hbm, ⟨0, _⟩ => ⟨S8192x8192, .f32⟩
  | .hbm, ⟨1, _⟩ => ⟨S8192x512, .f32⟩
  | .hbm, ⟨2, _⟩ => ⟨S128x512, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S1024, .i32⟩
  | .hbm, ⟨7, _⟩ => ⟨S8192x1, .f32⟩
  | .hbm, ⟨8, _⟩ => ⟨S1x8192, .f32⟩
  | .hbm, ⟨9, _⟩ => ⟨S1x128, .f32⟩
  | .hbm, ⟨10, _⟩ => ⟨S1x64, .f32⟩
  | .hbm, ⟨11, _⟩ => ⟨S8192x128, .f32⟩
  | .hbm, ⟨12, _⟩ => ⟨S8192x128, .f32⟩
  | .hbm, ⟨13, _⟩ => ⟨S8192x64, .f32⟩
  | .hbm, ⟨14, _⟩ => ⟨S8192x64, .f32⟩
  | .hbm, ⟨15, _⟩ => ⟨S_, .i32⟩
  | .hbm, ⟨16, _⟩ => ⟨S1024, .i32⟩
  | .hbm, ⟨17, _⟩ => ⟨S1024, .i1⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S1024, .i32⟩
  | .hbm, ⟨22, _⟩ => ⟨S1024x1, .i32⟩
  | .hbm, ⟨23, _⟩ => ⟨S1, .i32⟩
  | .hbm, ⟨24, _⟩ => ⟨S_, .i32⟩
  | .hbm, ⟨25, _⟩ => ⟨S1024x1, .i32⟩
  | .hbm, ⟨26, _⟩ => ⟨S1024x1, .i1⟩
  | .hbm, ⟨27, _⟩ => ⟨S1x1, .i32⟩
  | .hbm, ⟨28, _⟩ => ⟨S1024x1, .i32⟩
  | .hbm, ⟨29, _⟩ => ⟨S1024x1, .i1⟩
  | .hbm, ⟨30, _⟩ => ⟨S1024x1, .i1⟩
  | .hbm, ⟨31, _⟩ => ⟨S_, .i1⟩
  | .hbm, ⟨32, _⟩ => ⟨S1024, .i1⟩
  | .hbm, ⟨33, _⟩ => ⟨S1024x64, .f32⟩
  | .hbm, ⟨34, _⟩ => ⟨S1024x64, .i1⟩
  | .hbm, ⟨35, _⟩ => ⟨S_, .f32⟩
  | .hbm, ⟨36, _⟩ => ⟨S1024x64, .f32⟩
  | .hbm, ⟨37, _⟩ => ⟨S1024x64, .f32⟩
  | .local _ .vmem, ⟨0, _⟩ => ⟨S1024x1024, .f32⟩
  | .local _ .vmem, ⟨1, _⟩ => ⟨S1024x1024, .f32⟩
  | .local _ .vmem, ⟨2, _⟩ => ⟨S1024x1, .f32⟩
  | .local _ .vmem, ⟨3, _⟩ => ⟨S1024x1, .f32⟩
  | .local _ .vmem, ⟨4, _⟩ => ⟨S1024x1, .f32⟩
  | .local _ .vmem, ⟨5, _⟩ => ⟨S2048x512, .f32⟩
  | .local _ .vmem, ⟨6, _⟩ => ⟨S2048x512, .f32⟩
  | .local _ .vmem, ⟨7, _⟩ => ⟨S128x512, .f32⟩
  | .local _ .vmem, ⟨8, _⟩ => ⟨S1x128, .f32⟩
  | .local _ .vmem, ⟨9, _⟩ => ⟨S2048x128, .f32⟩
  | .local _ .vmem, ⟨10, _⟩ => ⟨S2048x128, .f32⟩
  | .local _ .vmem, ⟨11, _⟩ => ⟨S1024x1024, .f32⟩
  | .local _ .vmem, ⟨12, _⟩ => ⟨S1024x1024, .f32⟩
  | .local _ .vmem, ⟨13, _⟩ => ⟨S1024x128, .f32⟩
  | .local _ .vmem, ⟨14, _⟩ => ⟨S1024x128, .f32⟩
  | .local _ .vmem, ⟨15, _⟩ => ⟨S1024x1, .f32⟩
  | .local _ .vmem, ⟨16, _⟩ => ⟨S1024x1, .f32⟩
  | .local _ .vmem, ⟨17, _⟩ => ⟨S1x1024, .f32⟩
  | .local _ .vmem, ⟨18, _⟩ => ⟨S1x1024, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S2048x128, .f32⟩
  | .local _ .vmem, ⟨23, _⟩ => ⟨S2048x128, .f32⟩
  | .local _ .vmem, ⟨24, _⟩ => ⟨S64x128, .f32⟩
  | .local _ .vmem, ⟨25, _⟩ => ⟨S1x64, .f32⟩
  | .local _ .vmem, ⟨26, _⟩ => ⟨S2048x64, .f32⟩
  | .local _ .vmem, ⟨27, _⟩ => ⟨S2048x64, .f32⟩
  | .local _ .vmem, ⟨28, _⟩ => ⟨S1024x1024, .f32⟩
  | .local _ .vmem, ⟨29, _⟩ => ⟨S1024x1024, .f32⟩
  | .local _ .vmem, ⟨30, _⟩ => ⟨S1024x64, .f32⟩
  | .local _ .vmem, ⟨31, _⟩ => ⟨S1024x64, .f32⟩
  | .local _ .vmem, ⟨32, _⟩ => ⟨S1024x1, .f32⟩
  | .local _ .vmem, ⟨33, _⟩ => ⟨S1024x1, .f32⟩
  | .local _ .vmem, ⟨34, _⟩ => ⟨S1x1024, .f32⟩
  | .local _ .vmem, ⟨35, _⟩ => ⟨S1x1024, .f32⟩
  | .local _ .vmem, ⟨36, _⟩ => ⟨S1024x64, .f32⟩
  | .local _ .vmem, ⟨37, _⟩ => ⟨S1024x64, .f32⟩
  | .local _ .vmem, ⟨38, _⟩ => ⟨S1024x64, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v8 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc4_stg4_0 : Ref sig .tc := ⟨.vmem, 36, rfl⟩
abbrev cc4_stg4_1 : Ref sig .tc := ⟨.vmem, 37, rfl⟩
abbrev cc4_scratch0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem3_1 : DmaSem sig := 33
abbrev cc4_sem4_0 : DmaSem sig := 34
abbrev cc4_sem4_1 : DmaSem sig := 35

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v28 : BitVec 1 := Scalar.cmpi .eq arg1 c7_i32
  let v29 : BitVec 32 := Scalar.extui v28
  let c0_i32_9 : BitVec 32 := 0#32
  let v30 : BitVec 1 := Scalar.cmpi .ne v29 c0_i32_9
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_15 : BitVec 32 := 0#32
  let v41 : BitVec 1 := Scalar.cmpi .ne v40 c0_i32_15
  v41

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2048x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![8, 8], ![false, false]⟩

def k4_cond2 (i : grid4.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_15 : BitVec 32 := 0#32
  let v41 : BitVec 1 := Scalar.cmpi .ne v40 c0_i32_15
  v41

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1024x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true]

abbrev stage4_4 : Fin 2 → Memref sig .tc .vmem S1024x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  natLt_1_32 : 1 < 32
  iota_S1024x1_d0_w32 : S1024x1.Iotas .tc 32 [0]
  iota_S1x1024_d1_w32 : S1x1024.Iotas .tc 32 [1]
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  transposes_S8192x1_S1x8192_1_0 : S8192x1.Transposes [1, 0] S1x8192
  shapeCasts_S128_S1x128 : S128.ShapeCasts S1x128
  shapeCasts_S64_S1x64 : S64.ShapeCasts S1x64
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  transposes_S128x512_p1_0_S512x128 : S128x512.Transposes [1, 0] S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S2048x128_S2048x128 : S2048x128.ShapeCasts S2048x128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S1024x64_0 : S1024.BroadcastsInDim S1024x64 (![0] : Fin 1 → Fin S1024x64.rank)
  bcast_S_S1024x64 : S_.BroadcastsInDim S1024x64 (![] : Fin 0 → Fin S1024x64.rank)
  dot_S2048x512_S512x128_S2048x128_1_0_0_1_n_n_wf : DotDims.WF S2048x512 S512x128 S2048x128 [1] [0] [0] [1] [] []
  dot_S1024x1024_S1024x128_S1024x128_1_0_0_1_n_n_wf : DotDims.WF S1024x1024 S1024x128 S1024x128 [1] [0] [0] [1] [] []
  dot_S2048x128_S128x64_S2048x64_1_0_0_1_n_n_wf : DotDims.WF S2048x128 S128x64 S2048x64 [1] [0] [0] [1] [] []
  dot_S1024x1024_S1024x64_S1024x64_1_0_0_1_n_n_wf : DotDims.WF S1024x1024 S1024x64 S1024x64 [1] [0] [0] [1] [] []
  gather_S8192x64_S1024x1_S1024x64_1_0_n_n_0_1_164_wf : GatherDims.WF S8192x64 S1024x1 S1024x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x512.size a
  hwx1_0 : ∀ i : grid1.Coords, EltTy.bits .f32 = 32 ∨ (Rect.block (s := S8192x512) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S128x512.size a
  hwx1_1 : ∀ i : grid1.Coords, EltTy.bits .f32 = 32 ∨ (Rect.block (s := S128x512) S128x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S8192x128.size a
  hwx1_3 : ∀ i : grid1.Coords, EltTy.bits .f32 = 32 ∨ (Rect.block (s := S8192x128) S2048x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x8192.size a
  hwx2_0 : ∀ i : grid2.Coords, EltTy.bits .f32 = 32 ∨ (Rect.block (s := S8192x8192) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .f32 = 32 ∨ (Rect.block (s := S8192x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x8192.size a
  hwx2_3 : ∀ i : grid2.Coords, EltTy.bits .f32 = 32 ∨ (Rect.block (s := S1x8192) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x128.size a ≤ S8192x128.size a
  hwx2_4 : ∀ i : grid2.Coords, EltTy.bits .f32 = 32 ∨ (Rect.block (s := S8192x128) S1024x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S8192x128.size a
  hwx3_0 : ∀ i : grid3.Coords, EltTy.bits .f32 = 32 ∨ (Rect.block (s := S8192x128) S2048x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x128.size a ≤ S64x128.size a
  hwx3_1 : ∀ i : grid3.Coords, EltTy.bits .f32 = 32 ∨ (Rect.block (s := S64x128) S64x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x64.size a ≤ S8192x64.size a
  hwx3_3 : ∀ i : grid3.Coords, EltTy.bits .f32 = 32 ∨ (Rect.block (s := S8192x64) S2048x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S8192x8192.size a
  hwx4_0 : ∀ i : grid4.Coords, EltTy.bits .f32 = 32 ∨ (Rect.block (s := S8192x8192) S1024x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x64.size a ≤ S8192x64.size a
  hwx4_1 : ∀ i : grid4.Coords, EltTy.bits .f32 = 32 ∨ (Rect.block (s := S8192x64) S1024x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1.size a ≤ S8192x1.size a
  hwx4_2 : ∀ i : grid4.Coords, EltTy.bits .f32 = 32 ∨ (Rect.block (s := S8192x1) S1024x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x1024.size a ≤ S1x8192.size a
  hwx4_3 : ∀ i : grid4.Coords, EltTy.bits .f32 = 32 ∨ (Rect.block (s := S1x8192) S1x1024.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1024x64.size a ≤ S8192x64.size a
  hwx4_4 : ∀ i : grid4.Coords, EltTy.bits .f32 = 32 ∨ (Rect.block (s := S8192x64) S1024x64.size (cc4_transform_4 i) (hinb4_4 i)).WholeWords (EltTy.packing .f32)

variable [Facts₀]

def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def gather_S8192x64_S1024x1_S1024x64_1_0_n_n_0_1_164 : GatherDims S8192x64 S1024x1 S1024x64 where
  offsetDims := [1]
  collapsedSliceDims := [0]
  operandBatchingDims := []
  startIndicesBatchingDims := []
  startIndexMap := [0]
  indexVectorDim := 1
  sliceSizes := ![1, 64]
  wf := gather_S8192x64_S1024x1_S1024x64_1_0_n_n_0_1_164_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg1) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v1) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v5) S1024x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v5) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v3) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v6) S2048x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg0) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v6) S1024x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v0) S1024x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v1) S1x1024.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v7) S1024x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x512 : Shape := ⟨2, ![8192, 512]⟩
abbrev S128x512 : Shape := ⟨2, ![128, 512]⟩
abbrev S128 : Shape := ⟨1, ![128]⟩
abbrev S64x128 : Shape := ⟨2, ![64, 128]⟩
abbrev S64 : Shape := ⟨1, ![64]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2 : Shape := ⟨2, ![8192, 2]⟩
abbrev S1x8192 : Shape := ⟨2, ![1, 8192]⟩
abbrev S512x128 : Shape := ⟨2, ![512, 128]⟩
abbrev S8192x128 : Shape := ⟨2, ![8192, 128]⟩
abbrev S1x128 : Shape := ⟨2, ![1, 128]⟩
abbrev S128x64 : Shape := ⟨2, ![128, 64]⟩
abbrev S8192x64 : Shape := ⟨2, ![8192, 64]⟩
abbrev S1x64 : Shape := ⟨2, ![1, 64]⟩
abbrev S1024x1 : Shape := ⟨2, ![1024, 1]⟩
abbrev S1024x64 : Shape := ⟨2, ![1024, 64]⟩

abbrev nBuf : Space → Nat
  | .hbm => 68
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x512, .f32⟩
  | .hbm, ⟨2, _⟩ => ⟨S128x512, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S1024, .i32⟩
  | .hbm, ⟨7, _⟩ => ⟨S_, .f32⟩
  | .hbm, ⟨8, _⟩ => ⟨S8192x8192, .f32⟩
  | .hbm, ⟨9, _⟩ => ⟨S8192x8192, .i1⟩
  | .hbm, ⟨10, _⟩ => ⟨S8192x8192, .f32⟩
  | .hbm, ⟨11, _⟩ => ⟨S8192, .i32⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S8192x1, .i32⟩
  | .hbm, ⟨28, _⟩ => ⟨S8192x2, .i32⟩
  | .hbm, ⟨29, _⟩ => ⟨S_, .f32⟩
  | .hbm, ⟨30, _⟩ => ⟨S8192, .f32⟩
  | .hbm, ⟨31, _⟩ => ⟨S8192x8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S8192x1, .f32⟩
  | .hbm, ⟨36, _⟩ => ⟨S8192x8192, .f32⟩
  | .hbm, ⟨37, _⟩ => ⟨S8192x8192, .f32⟩
  | .hbm, ⟨38, _⟩ => ⟨S1x8192, .f32⟩
  | .hbm, ⟨39, _⟩ => ⟨S8192x8192, .f32⟩
  | .hbm, ⟨40, _⟩ => ⟨S8192x8192, .f32⟩
  | .hbm, ⟨41, _⟩ => ⟨S512x128, .f32⟩
  | .hbm, ⟨42, _⟩ => ⟨S8192x128, .f32⟩
  | .hbm, ⟨43, _⟩ => ⟨S1x128, .f32⟩
  | .hbm, ⟨44, _⟩ => ⟨S8192x128, .f32⟩
  | .hbm, ⟨45, _⟩ => ⟨S8192x128, .f32⟩
  | .hbm, ⟨46, _⟩ => ⟨S8192x128, .f32⟩
  | .hbm, ⟨47, _⟩ => ⟨S_, .f32⟩
  | .hbm, ⟨48, _⟩ => ⟨S8192x128, .f32⟩
  | .hbm, ⟨49, _⟩ => ⟨S8192x128, .f32⟩
  | .hbm, ⟨50, _⟩ => ⟨S128x64, .f32⟩
  | .hbm, ⟨51, _⟩ => ⟨S8192x64, .f32⟩
  | .hbm, ⟨52, _⟩ => ⟨S1x64, .f32⟩
  | .hbm, ⟨53, _⟩ => ⟨S8192x64, .f32⟩
  | .hbm, ⟨54, _⟩ => ⟨S8192x64, .f32⟩
  | .hbm, ⟨55, _⟩ => ⟨S8192x64, .f32⟩
  | .hbm, ⟨56, _⟩ => ⟨S_, .f32⟩
  | .hbm, ⟨57, _⟩ => ⟨S8192x64, .f32⟩
  | .hbm, ⟨58, _⟩ => ⟨S8192x64, .f32⟩
  | .hbm, ⟨59, _⟩ => ⟨S_, .i32⟩
  | .hbm, ⟨60, _⟩ => ⟨S1024, .i32⟩
  | .hbm, ⟨61, _⟩ => ⟨S1024, .i1⟩
  | .hbm, ⟨62, _⟩ => ⟨S_, .i32⟩
  | .hbm, ⟨63, _⟩ => ⟨S1024, .i32⟩
  | .hbm, ⟨64, _⟩ => ⟨S1024, .i32⟩
  | .hbm, ⟨65, _⟩ => ⟨S1024, .i32⟩
  | .hbm, ⟨66, _⟩ => ⟨S1024x1, .i32⟩
  | .hbm, ⟨67, _⟩ => ⟨S1024x64, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call0_cst : Ref sig .tc := ⟨.hbm, 47, rfl⟩
abbrev main_call0_v0 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call1_cst : Ref sig .tc := ⟨.hbm, 56, rfl⟩
abbrev main_call1_v0 : Ref sig .tc := ⟨.hbm, 57, rfl⟩
abbrev main_v40 : Ref sig .tc := ⟨.hbm, 58, rfl⟩
abbrev main_c_5 : Ref sig .tc := ⟨.hbm, 59, rfl⟩
abbrev main_v41 : Ref sig .tc := ⟨.hbm, 60, rfl⟩
abbrev main_v42 : Ref sig .tc := ⟨.hbm, 61, rfl⟩
abbrev main_c_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  reducesTo_S8192x8192_S8192_d1 : S8192x8192.ReducesTo [1] S8192
  h_S_ : 0 < S_.numel
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S128x512_S512x128_1_0 : S128x512.Transposes [1, 0] S512x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  transposes_S64x128_S128x64_1_0 : S64x128.Transposes [1, 0] S128x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S_S1024 : S_.BroadcastsInDim S1024 (![] : Fin 0 → Fin S1024.rank)
  bcast_S1024_S1024x1_0 : S1024.BroadcastsInDim S1024x1 (![0] : Fin 1 → Fin S1024x1.rank)
  scatter_S8192x8192_S8192x2_S8192_n_01_01_1_wf : ScatterDims.WF S8192x8192 S8192x2 S8192 [] [0, 1] [0, 1] 1
  dot_S8192x512_S512x128_S8192x128_1_0_0_1_n_n_wf : DotDims.WF S8192x512 S512x128 S8192x128 [1] [0] [0] [1] [] []
  dot_S8192x8192_S8192x128_S8192x128_1_0_0_1_n_n_wf : DotDims.WF S8192x8192 S8192x128 S8192x128 [1] [0] [0] [1] [] []
  dot_S8192x128_S128x64_S8192x64_1_0_0_1_n_n_wf : DotDims.WF S8192x128 S128x64 S8192x64 [1] [0] [0] [1] [] []
  dot_S8192x8192_S8192x64_S8192x64_1_0_0_1_n_n_wf : DotDims.WF S8192x8192 S8192x64 S8192x64 [1] [0] [0] [1] [] []
  gather_S8192x64_S1024x1_S1024x64_1_0_n_n_0_1_164_wf : GatherDims.WF S8192x64 S1024x1 S1024x64 [1] [0] [] [0] [] 1 ![1, 64]

variable [Facts₀]

def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf
def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def gather_S8192x64_S1024x1_S1024x64_1_0_n_n_0_1_164 : GatherDims S8192x64 S1024x1 S1024x64 where
  offsetDims := [1]
  collapsedSliceDims := [0]
  operandBatchingDims := []
  startIndicesBatchingDims := []
  startIndexMap := [0]
  indexVectorDim := 1
  sliceSizes := ![1, 64]
  wf := gather_S8192x64_S1024x1_S1024x64_1_0_n_n_0_1_164_wf

class Facts : Prop extends Facts₀ where

variable [Facts]
-- ==== Proof.Same.lean ====
import proofs.«417937_j15461882266039_1_alg».proof.Defs
import proofs.«417937_j15461882266039_1_alg».proof.Proof.Gen.Kernel.Launch
import proofs.«417937_j15461882266039_1_alg».proof.Proof.Gen.KernelIdeal.Launch

noncomputable section

namespace Cert.Same

open Idealize.ShloMosaic Idealize.ShloMosaic.TcCoe Idealize.SL.Sem
open Cert.Kernel (grid0 grid1 grid2 grid3 grid4 win0 win1 win2 win3 win4)

variable {nD : Nat} {τ : Topo} {sig : RefSig} {Val : EltTy → Type}

-- @main's shape: a region, a host stretch, four regions, a host stretch
def chainOf (Λ₀ : Labels) (A : Fin 5 → Type) (a b : List (HloOp τ sig Val)) :
    Prog (TpuEff nD τ sig Val (Pipeline.Sig Λ₀ (Fin 5) A) .tc) PUnit :=
  Pipeline.chain [Prog.lift (.customCall (Pipeline.entry 0) ()), StableHlo.seq a, Prog.lift (.customCall (Pipeline.entry 1) ()),
    Prog.lift (.customCall (Pipeline.entry 2) ()), Prog.lift (.customCall (Pipeline.entry 3) ()),
    Prog.lift (.customCall (Pipeline.entry 4) ()), StableHlo.seq b]

-- every weakly fair execution ends, nothing faulting, with the buffers `args` as launched
def Frame {Λ : Labels} (defs : Defs nD τ sig Val Λ) (main : Dev nD → Prog (TpuEff nD τ sig Val Λ .tc) PUnit)
    (args : List (Ref sig .tc)) : Prop :=
  ∀ (m : (ℓ : Loc nD τ sig) → Buf Val ℓ) (ρ : Dev nD → PrngReg),
    θ_run defs (onTc (τ := τ) main) ⟨m, fun _ => 0, ρ⟩ (fun r => ∀ c : Dev nD, ∀ b ∈ args,
      r.2.mem ((c.tc : Thread nD τ).loc b) = m ((c.tc : Thread nD τ).loc b))

variable {F : FTy → Type} [FloatOps F]

-- the idealization rewrote nothing, so label by label the two programs run the same kernel body
theorem d0 (t : Fin grid0.N) (s : (w : Fin 2) → Fin (win0 w).nbuf) :
    Cert.Kernel.defs₀ (F := F) .tc 0 (t, s) = Cert.KernelIdeal.defs₀ .tc 0 (t, s) := rfl
theorem d1 (t : Fin grid1.N) (s : (w : Fin 4) → Fin (win1 w).nbuf) :
    Cert.Kernel.defs₀ (F := F) .tc 1 (t, s) = Cert.KernelIdeal.defs₀ .tc 1 (t, s) := rfl
theorem d2 (t : Fin grid2.N) (s : (w : Fin 5) → Fin (win2 w).nbuf) :
    Cert.Kernel.defs₀ (F := F) .tc 2 (t, s) = Cert.KernelIdeal.defs₀ .tc 2 (t, s) := rfl
theorem d3 (t : Fin grid3.N) (s : (w : Fin 4) → Fin (win3 w).nbuf) :
    Cert.Kernel.defs₀ (F := F) .tc 3 (t, s) = Cert.KernelIdeal.defs₀ .tc 3 (t, s) := rfl
theorem d4 (t : Fin grid4.N) (s : (w : Fin 5) → Fin (win4 w).nbuf) :
    Cert.Kernel.defs₀ (F := F) .tc 4 (t, s) = Cert.KernelIdeal.defs₀ .tc 4 (t, s) := rfl

theorem d : ∀ (ℓ : Fin 5) (a : Cert.Kernel.Λ₀.Args ℓ), Cert.Kernel.defs₀ (F := F) .tc ℓ a = Cert.KernelIdeal.defs₀ .tc ℓ a
  | 0, (t, s) => d0 t s
  | 1, (t, s) => d1 t s
  | 2, (t, s) => d2 t s
  | 3, (t, s) => d3 t s
  | 4, (t, s) => d4 t s
  | ⟨_ + 5, h⟩, _ => absurd h (Nat.not_lt.2 (Nat.le_add_left _ _))

theorem defs₀ : Cert.Kernel.defs₀ (F := F) = Cert.KernelIdeal.defs₀ :=
  show Defs.onTc (Cert.Kernel.defs₀ .tc) = Defs.onTc (Cert.KernelIdeal.defs₀ .tc) from
    congrArg Defs.onTc (funext fun ℓ => funext fun a => d ℓ a)

theorem defs : Cert.Kernel.defs (F := F) = Cert.KernelIdeal.defs :=
  congrArg (Pipeline.defs Cert.KernelIdeal.pcfgs) defs₀

theorem h1 : Cert.Kernel.Gen.hostOps1 (F := F) = Cert.KernelIdeal.Gen.hostOps1 := rfl
-- the row pick's operations, compared eight at a time
theorem h5a : (Cert.Kernel.Gen.hostOps5 (F := F)).take 8 = (Cert.KernelIdeal.Gen.hostOps5).take 8 := rfl
theorem h5b : ((Cert.Kernel.Gen.hostOps5 (F := F)).drop 8).take 8 = ((Cert.KernelIdeal.Gen.hostOps5).drop 8).take 8 := rfl
theorem h5c : (Cert.Kernel.Gen.hostOps5 (F := F)).drop 16 = (Cert.KernelIdeal.Gen.hostOps5).drop 16 := rfl
theorem h5 : Cert.Kernel.Gen.hostOps5 (F := F) = Cert.KernelIdeal.Gen.hostOps5 := by
  rw [← List.take_append_drop 8 (Cert.Kernel.Gen.hostOps5 (F := F)), ← List.take_append_drop 8 (Cert.KernelIdeal.Gen.hostOps5 (F := F)), h5a,
    ← List.take_append_drop 8 ((Cert.Kernel.Gen.hostOps5 (F := F)).drop 8), ← List.take_append_drop 8 ((Cert.KernelIdeal.Gen.hostOps5 (F := F)).drop 8), h5b,
    List.drop_drop, List.drop_drop, h5c]

theorem mainK (c : Dev Cert.Kernel.nD) : Cert.Kernel.main (F := F) c
    = chainOf Cert.Kernel.Λ₀ (fun p => (Cert.Kernel.pcfgs (F := F) p).Adm) Cert.KernelIdeal.Gen.hostOps1 Cert.KernelIdeal.Gen.hostOps5 :=
  (Cert.Kernel.Gen.main_chain c).trans (congrArg₂ (chainOf Cert.Kernel.Λ₀ _) h1 h5)

-- the two programs' chains are one chain
theorem chain_eq : chainOf (nD := Cert.Kernel.nD) Cert.Kernel.Λ₀ (fun p => (Cert.Kernel.pcfgs (F := F) p).Adm) (Cert.KernelIdeal.Gen.hostOps1 (F := F)) Cert.KernelIdeal.Gen.hostOps5
    = chainOf Cert.KernelIdeal.Λ₀ (fun p => (Cert.KernelIdeal.pcfgs (F := F) p).Adm) (Cert.KernelIdeal.Gen.hostOps1 (F := F)) Cert.KernelIdeal.Gen.hostOps5 := rfl

theorem main : Cert.Kernel.main (F := F) = Cert.KernelIdeal.main :=
  funext fun c => (mainK c).trans (chain_eq.trans (Cert.KernelIdeal.Gen.main_chain c).symm)

-- so a frame of the idealized text, read at any instance, is a frame of the word-level text
theorem frame (h : Frame (Cert.KernelIdeal.defs (F := F)) Cert.KernelIdeal.main [Cert.KernelIdeal.main_arg0, Cert.KernelIdeal.main_arg1, Cert.KernelIdeal.main_arg2, Cert.KernelIdeal.main_arg3, Cert.KernelIdeal.main_arg4, Cert.KernelIdeal.main_arg5, Cert.KernelIdeal.main_arg6]) :
    Frame (Cert.Kernel.defs (F := F)) Cert.Kernel.main [Cert.Kernel.main_arg0, Cert.Kernel.main_arg1, Cert.Kernel.main_arg2, Cert.Kernel.main_arg3, Cert.Kernel.main_arg4, Cert.Kernel.main_arg5, Cert.Kernel.main_arg6] := by
  rw [defs, main]; exact h

end Cert.Same

end
-- ==== Proof.KI.Deg0Runs.lean ====
import proofs.«417937_j15461882266039_1_alg».proof.Proof.Gen.KernelIdeal.Launch
import proofs.«417937_j15461882266039_1_alg».proof.Proof.Gen.KernelIdeal.Skeleton
import proofs.«417937_j15461882266039_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := k0_cond2 i = 1#1

theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel

theorem idleAt0_1_A : ∀ t : Fin cfg0.N, cond0_0 (grid0.coords t) → ¬cond0_1 (grid0.coords t) → cfg0.idle 1 (grid0.coords t) = true := by decide +kernel

theorem noFlush0_1_A : ∀ t : Fin cfg0.N, cond0_0 (grid0.coords t) → ¬cond0_1 (grid0.coords t) → (cfg0.win 1).flush t = false := by decide +kernel

theorem idleAt0_1_B : ∀ t : Fin cfg0.N, ¬cond0_0 (grid0.coords t) → ¬cond0_1 (grid0.coords t) → cfg0.idle 1 (grid0.coords t) = true := by decide +kernel

theorem noFlush0_1_B : ∀ t : Fin cfg0.N, ¬cond0_0 (grid0.coords t) → ¬cond0_1 (grid0.coords t) → (cfg0.win 1).flush t = false := by decide +kernel

theorem liveAt0_1_C : ∀ t : Fin cfg0.N, ¬cond0_0 (grid0.coords t) → cond0_1 (grid0.coords t) → cfg0.idle 1 (grid0.coords t) = false := by decide +kernel

abbrev VO0_1 : View sig .tc .vmem S1024x1 .f32 := (Memref.whole cc0_stg1_0 : Memref sig .tc .vmem S1024x1 .f32).view

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)

abbrev scM0_0 : Memref sig .tc .vmem S1024x1 .f32 := Memref.whole cc0_scratch0

abbrev VS0_0 : View sig .tc .vmem S1024x1 .f32 := scM0_0.view

abbrev restBut0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0_0 fullShare d) ∗ restBut0 (F := F) c) ∗ (∃ r, prngReg c r)) := by
  unfold Pipeline.ΦA; rw [scopedRest0_split]; simp only [scM0_0, owns_whole]; try rfl

end Cert.KernelIdeal.Hand

end
-- ==== Proof.KI.Deg0RunA.lean ====
import proofs.«417937_j15461882266039_1_alg».proof.Proof.KI.Deg0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def kernelRun0_A (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x1024 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.KI.Deg0RunB.lean ====
import proofs.«417937_j15461882266039_1_alg».proof.Proof.KI.Deg0RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def kernelRun0_B (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x1024 .f32) (xs0 : Vec F S1024x1 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.KI.Deg0RunC.lean ====
import proofs.«417937_j15461882266039_1_alg».proof.Proof.KI.Deg0RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def kernelRun0_C (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x1024 .f32) (xs0 : Vec F S1024x1 .f32) :
    Σ' (L1 : List (View.Piece (Elt F) S1024x1 .f32)), { LS0 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Hand

end
-- ==== Proof.KI.Deg0.lean ====
import proofs.«417937_j15461882266039_1_alg».proof.Proof.KI.Deg0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole)

def out0_A_1 (hc0 : cond0_0 i) (hc1 : ¬cond0_1 i)
    (x0 : Vec F S1024x1024 .f32) : Vec F S1024x1 .f32 :=
  VO0_1.read (Elt F) (VO0_1.writes (Elt F) VO0_1.junk (kernelRun0_A c i arg2 harg2 arg3 harg3 arg4 harg4 hc0 hc1 x0).1)

theorem scover0_A_0 (hc0 : cond0_0 i) (hc1 : ¬cond0_1 i)
    (x0 : Vec F S1024x1024 .f32) (y : S1024x1.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S1024x1.size (by sl_kernel_rfl) y

def sout0_A_0 (hc0 : cond0_0 i) (hc1 : ¬cond0_1 i)
    (x0 : Vec F S1024x1024 .f32) : Vec F S1024x1 .f32 :=
  VS0_0.read (Elt F) (VS0_0.writes (Elt F) VS0_0.junk (kernelRun0_A c i arg2 harg2 arg3 harg3 arg4 harg4 hc0 hc1 x0).2.1)

def out0_B_1 (hc0 : ¬cond0_0 i) (hc1 : ¬cond0_1 i)
    (x0 : Vec F S1024x1024 .f32) (xs0 : Vec F S1024x1 .f32) : Vec F S1024x1 .f32 :=
  VO0_1.read (Elt F) (VO0_1.writes (Elt F) VO0_1.junk (kernelRun0_B c i arg2 harg2 arg3 harg3 arg4 harg4 hc0 hc1 x0 xs0).1)

theorem scover0_B_0 (hc0 : ¬cond0_0 i) (hc1 : ¬cond0_1 i)
    (x0 : Vec F S1024x1024 .f32) (xs0 : Vec F S1024x1 .f32) (y : S1024x1.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S1024x1.size (by sl_kernel_rfl) y

def sout0_B_0 (hc0 : ¬cond0_0 i) (hc1 : ¬cond0_1 i)
    (x0 : Vec F S1024x1024 .f32) (xs0 : Vec F S1024x1 .f32) : Vec F S1024x1 .f32 :=
  VS0_0.read (Elt F) (VS0_0.writes (Elt F) VS0_0.junk (kernelRun0_B c i arg2 harg2 arg3 harg3 arg4 harg4 hc0 hc1 x0 xs0).2.1)

theorem cover0_C_1 (hc0 : ¬cond0_0 i) (hc1 : cond0_1 i)
    (x0 : Vec F S1024x1024 .f32) (xs0 : Vec F S1024x1 .f32) (y : S1024x1.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1024x1.size (by sl_kernel_rfl) y

def out0_C_1 (hc0 : ¬cond0_0 i) (hc1 : cond0_1 i)
    (x0 : Vec F S1024x1024 .f32) (xs0 : Vec F S1024x1 .f32) : Vec F S1024x1 .f32 :=
  VO0_1.read (Elt F) (VO0_1.writes (Elt F) VO0_1.junk (kernelRun0_C c i arg2 harg2 arg3 harg3 arg4 harg4 hc0 hc1 x0 xs0).1)

theorem scover0_C_0 (hc0 : ¬cond0_0 i) (hc1 : cond0_1 i)
    (x0 : Vec F S1024x1024 .f32) (xs0 : Vec F S1024x1 .f32) (y : S1024x1.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S1024x1.size (by sl_kernel_rfl) y

def sout0_C_0 (hc0 : ¬cond0_0 i) (hc1 : cond0_1 i)
    (x0 : Vec F S1024x1024 .f32) (xs0 : Vec F S1024x1 .f32) : Vec F S1024x1 .f32 :=
  VS0_0.read (Elt F) (VS0_0.writes (Elt F) VS0_0.junk (kernelRun0_C c i arg2 harg2 arg3 harg3 arg4 harg4 hc0 hc1 x0 xs0).2.1)

end

def outsAt0 (c : Dev nD) : (n : ℕ) → n < cfg0.N → Vec F S1024x1 .f32 × Vec F S1024x1 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 8 = 0 then
      if h1 : (n + 1) % 8 = 7 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 8 = 7 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restBut0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ restBut0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ restBut0 (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hr⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _)
            iexact Hr
          iexact Hg
        isplitl [Ho]; · iexact Ho
        isplitl [H0]; · iexact H0
        iexists _; iexact H1
      · rw [PhiS0_castSucc V c t, PhiS0_pos V c _ _ hz]
        iintro ⟨⟨⟨HS0, Hr⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _)
            iexact Hr
          iexact Hg
        isplitl [Ho]; · iexact Ho
        isplitl [H0]; · iexact H0
        iexists _; iexact H1
  · by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0; (try dsimp only)
      by_cases hz : t.val = 0
      · exfalso; omega
      · rw [PhiS0_castSucc V c t, PhiS0_pos V c _ _ hz]
        iintro ⟨⟨⟨HS0, Hr⟩, Hg⟩, Ho, ⟨%d0, H0⟩, ⟨%d1, H1⟩⟩
        iapply ((kernelRun0_C c (grid0.coords t) _ _ _ _ _ _ (fun h => h0 ((hcond0_0 t).mp h)) ((hcond0_1 t).mpr h1) (iblk0 V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_C_0 c _ _ _ _ _ _ _ _ _ _ _)
            iexact Hr
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, Hr⟩, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk0 V c 0 t) _).2.2 _ Set.univ _)
        isplitl [H0]; · iexact H0
        isplitl [H1]; · iexact H1
        isplitl [HS0]; · iexact HS0
        iintro ⟨H0, H1, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_B_0 c _ _ _ _ _ _ _ _ _ _ _)
            iexact Hr
          iexact Hg
        isplitl [Ho]; · iexact Ho
        isplitl [H0]; · iexact H0
        iexists _; iexact H1

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Hand

end
-- ==== Proof.KI.Lin1.lean ====
import proofs.«417937_j15461882266039_1_alg».proof.Proof.Gen.KernelIdeal.Launch
import proofs.«417937_j15461882266039_1_alg».proof.Proof.Gen.KernelIdeal.Skeleton
import proofs.«417937_j15461882266039_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2048x512 := Rect.unit (s := S2048x512) ![0, 0] S2048x512.size inb_S2048x512_S2048x512_0_0
abbrev r1_1 : Rect S128x512 := Rect.unit (s := S128x512) ![0, 0] S128x512.size inb_S128x512_S128x512_0_0
abbrev r1_2 : Rect S1x128 := Rect.unit (s := S1x128) ![0, 0] S1x128.size inb_S1x128_S1x128_0_0
abbrev r1_3 : Rect S2048x128 := Rect.unit (s := S2048x128) ![0, 0] S2048x128.size inb_S2048x128_S2048x128_0_0

def out1_3 (x0 : Vec F S2048x512 .f32) (x1 : Vec F S128x512 .f32) (x2 : Vec F S1x128 .f32) : Vec F S2048x128 .f32 :=
  View.canon [⟨r1_3, k1_pay1 (View.ld x0 r1_0) (View.ld x1 r1_1) (View.ld x2 r1_2)⟩]

theorem cover1_3 (p0 : Vec F S2048x128 .f32) (y : S2048x128.Idx) :
    ∃ pc ∈ ([⟨r1_3, p0⟩] : List (View.Piece (Elt F) S2048x128 .f32)), y ∈ pc.1.set :=
  View.cover_of_tiled [⟨r1_3, p0⟩] S2048x128.size (by rfl) y

set_option maxHeartbeats 1000000 in

theorem sound_kernel1 (c : Dev nD) (E : Set ℕ) (i : grid1.Coords) (arg0 : Memref sig .tc .vmem S2048x512 .f32) (harg0 : arg0.IsWhole) (arg1 : Memref sig .tc .vmem S128x512 .f32) (harg1 : arg1.IsWhole) (arg2 : Memref sig .tc .vmem S1x128 .f32) (harg2 : arg2.IsWhole) (arg3 : Memref sig .tc .vmem S2048x128 .f32) (harg3 : arg3.IsWhole)
    (x0 : Vec F S2048x512 .f32) (x1 : Vec F S128x512 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__linear_kernel i arg0 harg0 arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.Prop2.lean ====
import proofs.«417937_j15461882266039_1_alg».proof.Proof.Gen.KernelIdeal.Launch
import proofs.«417937_j15461882266039_1_alg».proof.Proof.Gen.KernelIdeal.Skeleton
import proofs.«417937_j15461882266039_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 8 = 0 :=
  (by decide +kernel : ∀ t : Fin grid2.N, cond2_0 (grid2.coords t) ↔ t.val % 8 = 0)

abbrev cond2_1 (i : grid2.Coords) : Prop := k2_cond2 i = 1#1

theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel

theorem idleAt2_4_A : ∀ t : Fin cfg2.N, cond2_0 (grid2.coords t) → ¬cond2_1 (grid2.coords t) → cfg2.idle 4 (grid2.coords t) = true := by decide +kernel
theorem noFlush2_4_A : ∀ t : Fin cfg2.N, cond2_0 (grid2.coords t) → ¬cond2_1 (grid2.coords t) → (cfg2.win 4).flush t = false := by decide +kernel

theorem idleAt2_4_B : ∀ t : Fin cfg2.N, ¬cond2_0 (grid2.coords t) → ¬cond2_1 (grid2.coords t) → cfg2.idle 4 (grid2.coords t) = true := by decide +kernel
theorem noFlush2_4_B : ∀ t : Fin cfg2.N, ¬cond2_0 (grid2.coords t) → ¬cond2_1 (grid2.coords t) → (cfg2.win 4).flush t = false := by decide +kernel

theorem liveAt2_4_C : ∀ t : Fin cfg2.N, ¬cond2_0 (grid2.coords t) → cond2_1 (grid2.coords t) → cfg2.idle 4 (grid2.coords t) = false := by decide +kernel

abbrev VO2_4 : View sig .tc .vmem S1024x128 .f32 := (Memref.whole cc2_stg4_0 : Memref sig .tc .vmem S1024x128 .f32).view
abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x128 .f32 := win2_4.stage (cfg2.slots t 4)
abbrev hs2_4 (t : Fin cfg2.N) : (ms2_4 t).IsWhole := hstage2_4 ((cfg2.slots t 4).cast nbuf2_4)

abbrev scM2_0 : Memref sig .tc .vmem S1024x128 .f32 := Memref.whole cc2_scratch0
abbrev VS2_0 : View sig .tc .vmem S1024x128 .f32 := scM2_0.view

theorem PhiA2_eq (c : Dev nD) :
    (Pipeline.ΦA spec2 c : sProp 𝕄)
      = iprop(iprop((∃ d, owns (c : Thread nD τ) scM2_0 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

section
variable (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1024x128 .f32) (harg7 : arg7.IsWhole)

set_option maxHeartbeats 4000000 in

noncomputable def kernelRun2_A (hc0 : cond2_0 i) (hc1 : ¬cond2_1 i)
    (x0 : Vec F S1024x1024 .f32) (x1 : Vec F S1024x128 .f32) (x2 : Vec F S1024x1 .f32) (x3 : Vec F S1x1024 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__propagate_kernel i arg2 harg2 arg3 harg3 arg4 harg4 arg5 harg5 arg6 harg6 arg7 harg7) K } := by
  refine ⟨[], ?_, fun xi4 E K => ?run⟩
  case run =>
    simp only [cc2__propagate_kernel_eq_skeleton]; unfold cc2__propagate_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in

noncomputable def kernelRun2_B (hc0 : ¬cond2_0 i) (hc1 : ¬cond2_1 i)
    (x0 : Vec F S1024x1024 .f32) (x1 : Vec F S1024x128 .f32) (x2 : Vec F S1024x1 .f32) (x3 : Vec F S1x1024 .f32) (xs0 : Vec F S1024x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__propagate_kernel i arg2 harg2 arg3 harg3 arg4 harg4 arg5 harg5 arg6 harg6 arg7 harg7) K } := by
  refine ⟨[], ?_, fun xi4 E K => ?run⟩
  case run =>
    simp only [cc2__propagate_kernel_eq_skeleton]; unfold cc2__propagate_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in

noncomputable def kernelRun2_C (hc0 : ¬cond2_0 i) (hc1 : cond2_1 i)
    (x0 : Vec F S1024x1024 .f32) (x1 : Vec F S1024x128 .f32) (x2 : Vec F S1024x1 .f32) (x3 : Vec F S1x1024 .f32) (xs0 : Vec F S1024x128 .f32) :
    Σ' (L4 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__propagate_kernel i arg2 harg2 arg3 harg3 arg4 harg4 arg5 harg5 arg6 harg6 arg7 harg7) K } := by
  refine ⟨?_, ?_, fun E K => ?run⟩
  case run =>
    simp only [cc2__propagate_kernel_eq_skeleton]; unfold cc2__propagate_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS0

def out2_A_4 (hc0 : cond2_0 i) (hc1 : ¬cond2_1 i)
    (x0 : Vec F S1024x1024 .f32) (x1 : Vec F S1024x128 .f32) (x2 : Vec F S1024x1 .f32) (x3 : Vec F S1x1024 .f32) : Vec F S1024x128 .f32 :=
  VO2_4.read (Elt F) (VO2_4.writes (Elt F) VO2_4.junk (kernelRun2_A c i arg2 harg2 arg3 harg3 arg4 harg4 arg5 harg5 arg6 harg6 arg7 harg7 hc0 hc1 x0 x1 x2 x3).1)

theorem scover2_A_0 (hc0 : cond2_0 i) (hc1 : ¬cond2_1 i)
    (x0 : Vec F S1024x1024 .f32) (x1 : Vec F S1024x128 .f32) (x2 : Vec F S1024x1 .f32) (x3 : Vec F S1x1024 .f32) (y : S1024x128.Idx) :
    ∃ pc ∈ (kernelRun2_A c i arg2 harg2 arg3 harg3 arg4 harg4 arg5 harg5 arg6 harg6 arg7 harg7 hc0 hc1 x0 x1 x2 x3).2.1, y ∈ pc.1.set :=
  View.cover_of_tiledL (kernelRun2_A c i arg2 harg2 arg3 harg3 arg4 harg4 arg5 harg5 arg6 harg6 arg7 harg7 hc0 hc1 x0 x1 x2 x3).2.1 S1024x128.size (by sl_kernel_rfl) y

def sout2_A_0 (hc0 : cond2_0 i) (hc1 : ¬cond2_1 i)
    (x0 : Vec F S1024x1024 .f32) (x1 : Vec F S1024x128 .f32) (x2 : Vec F S1024x1 .f32) (x3 : Vec F S1x1024 .f32) : Vec F S1024x128 .f32 :=
  VS2_0.read (Elt F) (VS2_0.writes (Elt F) VS2_0.junk (kernelRun2_A c i arg2 harg2 arg3 harg3 arg4 harg4 arg5 harg5 arg6 harg6 arg7 harg7 hc0 hc1 x0 x1 x2 x3).2.1)

def out2_B_4 (hc0 : ¬cond2_0 i) (hc1 : ¬cond2_1 i)
    (x0 : Vec F S1024x1024 .f32) (x1 : Vec F S1024x128 .f32) (x2 : Vec F S1024x1 .f32) (x3 : Vec F S1x1024 .f32) (xs0 : Vec F S1024x128 .f32) : Vec F S1024x128 .f32 :=
  VO2_4.read (Elt F) (VO2_4.writes (Elt F) VO2_4.junk (kernelRun2_B c i arg2 harg2 arg3 harg3 arg4 harg4 arg5 harg5 arg6 harg6 arg7 harg7 hc0 hc1 x0 x1 x2 x3 xs0).1)

theorem scover2_B_0 (hc0 : ¬cond2_0 i) (hc1 : ¬cond2_1 i)
    (x0 : Vec F S1024x1024 .f32) (x1 : Vec F S1024x128 .f32) (x2 : Vec F S1024x1 .f32) (x3 : Vec F S1x1024 .f32) (xs0 : Vec F S1024x128 .f32) (y : S1024x128.Idx) :
    ∃ pc ∈ (kernelRun2_B c i arg2 harg2 arg3 harg3 arg4 harg4 arg5 harg5 arg6 harg6 arg7 harg7 hc0 hc1 x0 x1 x2 x3 xs0).2.1, y ∈ pc.1.set :=
  View.cover_of_tiledL (kernelRun2_B c i arg2 harg2 arg3 harg3 arg4 harg4 arg5 harg5 arg6 harg6 arg7 harg7 hc0 hc1 x0 x1 x2 x3 xs0).2.1 S1024x128.size (by sl_kernel_rfl) y

def sout2_B_0 (hc0 : ¬cond2_0 i) (hc1 : ¬cond2_1 i)
    (x0 : Vec F S1024x1024 .f32) (x1 : Vec F S1024x128 .f32) (x2 : Vec F S1024x1 .f32) (x3 : Vec F S1x1024 .f32) (xs0 : Vec F S1024x128 .f32) : Vec F S1024x128 .f32 :=
  VS2_0.read (Elt F) (VS2_0.writes (Elt F) VS2_0.junk (kernelRun2_B c i arg2 harg2 arg3 harg3 arg4 harg4 arg5 harg5 arg6 harg6 arg7 harg7 hc0 hc1 x0 x1 x2 x3 xs0).2.1)

theorem cover2_C_4 (hc0 : ¬cond2_0 i) (hc1 : cond2_1 i)
    (x0 : Vec F S1024x1024 .f32) (x1 : Vec F S1024x128 .f32) (x2 : Vec F S1024x1 .f32) (x3 : Vec F S1x1024 .f32) (xs0 : Vec F S1024x128 .f32) (y : S1024x128.Idx) :
    ∃ pc ∈ (kernelRun2_C c i arg2 harg2 arg3 harg3 arg4 harg4 arg5 harg5 arg6 harg6 arg7 harg7 hc0 hc1 x0 x1 x2 x3 xs0).1, y ∈ pc.1.set :=
  View.cover_of_tiledL (kernelRun2_C c i arg2 harg2 arg3 harg3 arg4 harg4 arg5 harg5 arg6 harg6 arg7 harg7 hc0 hc1 x0 x1 x2 x3 xs0).1 S1024x128.size (by sl_kernel_rfl) y

def out2_C_4 (hc0 : ¬cond2_0 i) (hc1 : cond2_1 i)
    (x0 : Vec F S1024x1024 .f32) (x1 : Vec F S1024x128 .f32) (x2 : Vec F S1024x1 .f32) (x3 : Vec F S1x1024 .f32) (xs0 : Vec F S1024x128 .f32) : Vec F S1024x128 .f32 :=
  VO2_4.read (Elt F) (VO2_4.writes (Elt F) VO2_4.junk (kernelRun2_C c i arg2 harg2 arg3 harg3 arg4 harg4 arg5 harg5 arg6 harg6 arg7 harg7 hc0 hc1 x0 x1 x2 x3 xs0).1)

theorem scover2_C_0 (hc0 : ¬cond2_0 i) (hc1 : cond2_1 i)
    (x0 : Vec F S1024x1024 .f32) (x1 : Vec F S1024x128 .f32) (x2 : Vec F S1024x1 .f32) (x3 : Vec F S1x1024 .f32) (xs0 : Vec F S1024x128 .f32) (y : S1024x128.Idx) :
    ∃ pc ∈ (kernelRun2_C c i arg2 harg2 arg3 harg3 arg4 harg4 arg5 harg5 arg6 harg6 arg7 harg7 hc0 hc1 x0 x1 x2 x3 xs0).2.1, y ∈ pc.1.set :=
  View.cover_of_tiledL (kernelRun2_C c i arg2 harg2 arg3 harg3 arg4 harg4 arg5 harg5 arg6 harg6 arg7 harg7 hc0 hc1 x0 x1 x2 x3 xs0).2.1 S1024x128.size (by sl_kernel_rfl) y

def sout2_C_0 (hc0 : ¬cond2_0 i) (hc1 : cond2_1 i)
    (x0 : Vec F S1024x1024 .f32) (x1 : Vec F S1024x128 .f32) (x2 : Vec F S1024x1 .f32) (x3 : Vec F S1x1024 .f32) (xs0 : Vec F S1024x128 .f32) : Vec F S1024x128 .f32 :=
  VS2_0.read (Elt F) (VS2_0.writes (Elt F) VS2_0.junk (kernelRun2_C c i arg2 harg2 arg3 harg3 arg4 harg4 arg5 harg5 arg6 harg6 arg7 harg7 hc0 hc1 x0 x1 x2 x3 xs0).2.1)

end

def outsAt2 (c : Dev nD) : (n : ℕ) → n < cfg2.N → Vec F S1024x128 .f32 × Vec F S1024x128 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 8 = 0 then
      if h1 : (n + 1) % 8 = 7 then
        False.elim (by omega)
      else
        (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 8 = 7 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
      else
        (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

theorem outsAt2_A (c : Dev nD) (t : Fin cfg2.N) (h0 : t.val % 8 = 0) (h1 : ¬t.val % 8 = 7) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 8000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  by_cases h0 : t.val % 8 = 0
  · by_cases h1 : t.val % 8 = 7
    · exfalso; omega
    ·
      rw [Dat.leavesExact_idle (dat2 V c) 4 t (idleAt2_4_A t ((hcond2_0 t).mpr h0) (fun h => h1 ((hcond2_1 t).mp h))) (noFlush2_4_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, Hrest⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
      · rw [PhiS2_castSucc V c t, PhiS2_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    ·
      rw [show (dat2 V c).leavesExact 4 t = owns (c : Thread nD τ) (ms2_4 t) fullShare ((dat2 V c).after 4 t) from by
        unfold Dat.leavesExact; rw [liveAt2_4_C t (fun h => h0 ((hcond2_0 t).mp h)) ((hcond2_1 t).mpr h1)], after2_4]
      rw [outsAt2_C V c t h0 h1]
      unfold out2_C_4 sout2_C_0; (try dsimp only)
      by_cases hz : t.val = 0
      · exfalso; have hN : t.val < 64 := lt_of_lt_of_eq t.isLt (show cfg2.N = 64 from N_2); omega
      · rw [PhiS2_castSucc V c t, PhiS2_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_C_0 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover2_C_4 c _ _ _ _ _ _ _ _ _ _ _ _ _ _ _ _ _ _ _ _)
    ·
      rw [Dat.leavesExact_idle (dat2 V c) 4 t (idleAt2_4_B t (fun h => h0 ((hcond2_0 t).mp h)) (fun h => h1 ((hcond2_1 t).mp h))) (noFlush2_4_B t (fun h => h0 ((hcond2_0 t).mp h)) (fun h => h1 ((hcond2_1 t).mp h)))]
      rw [outsAt2_B V c t h0 h1]
      unfold sout2_B_0; (try dsimp only)
      by_cases hz : t.val = 0
      · exfalso; have hN : t.val < 64 := lt_of_lt_of_eq t.isLt (show cfg2.N = 64 from N_2); omega
      · rw [PhiS2_castSucc V c t, PhiS2_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_B_0 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

theorem hout2 (c : Dev nD) : (dat2 V c).Φ (Fin.last cfg2.N) ⊢ Pipeline.ΦA spec2 c :=
  Phi_out2 V c _ (by rw [Fin.val_last]; have : cfg2.N = 64 := N_2; omega)

end Cert.KernelIdeal.Hand

end
-- ==== Proof.KI.Lin3.lean ====
import proofs.«417937_j15461882266039_1_alg».proof.Proof.Gen.KernelIdeal.Launch
import proofs.«417937_j15461882266039_1_alg».proof.Proof.Gen.KernelIdeal.Skeleton
import proofs.«417937_j15461882266039_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S2048x128 := Rect.unit (s := S2048x128) ![0, 0] S2048x128.size inb_S2048x128_S2048x128_0_0
abbrev r3_1 : Rect S64x128 := Rect.unit (s := S64x128) ![0, 0] S64x128.size inb_S64x128_S64x128_0_0
abbrev r3_2 : Rect S1x64 := Rect.unit (s := S1x64) ![0, 0] S1x64.size inb_S1x64_S1x64_0_0
abbrev r3_3 : Rect S2048x64 := Rect.unit (s := S2048x64) ![0, 0] S2048x64.size inb_S2048x64_S2048x64_0_0

def out3_3 (x0 : Vec F S2048x128 .f32) (x1 : Vec F S64x128 .f32) (x2 : Vec F S1x64 .f32) : Vec F S2048x64 .f32 :=
  View.canon [⟨r3_3, k3_pay1 (View.ld x0 r3_0) (View.ld x1 r3_1) (View.ld x2 r3_2)⟩]

theorem cover3_3 (p0 : Vec F S2048x64 .f32) (y : S2048x64.Idx) :
    ∃ pc ∈ ([⟨r3_3, p0⟩] : List (View.Piece (Elt F) S2048x64 .f32)), y ∈ pc.1.set :=
  View.cover_of_tiled [⟨r3_3, p0⟩] S2048x64.size (by rfl) y

set_option maxHeartbeats 1000000 in

theorem sound_kernel3 (c : Dev nD) (E : Set ℕ) (i : grid3.Coords) (arg0 : Memref sig .tc .vmem S2048x128 .f32) (harg0 : arg0.IsWhole) (arg1 : Memref sig .tc .vmem S64x128 .f32) (harg1 : arg1.IsWhole) (arg2 : Memref sig .tc .vmem S1x64 .f32) (harg2 : arg2.IsWhole) (arg3 : Memref sig .tc .vmem S2048x64 .f32) (harg3 : arg3.IsWhole)
    (x0 : Vec F S2048x128 .f32) (x1 : Vec F S64x128 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out3_3 x0 x1 x2)) -∗ K ⟨⟩))
      ⊢ wp frame (wpE (defs₀ (F := F)) Variants.none c none) E (cc3__linear_kernel i arg0 harg0 arg1 harg1 arg2 harg2 arg3 harg3) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Regions

end Cert.KernelIdeal.Hand

end
-- ==== Proof.KI.Prop4.lean ====
import proofs.«417937_j15461882266039_1_alg».proof.Proof.Gen.KernelIdeal.Launch
import proofs.«417937_j15461882266039_1_alg».proof.Proof.Gen.KernelIdeal.Skeleton
import proofs.«417937_j15461882266039_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop := (Scalar.cmpi .ne (Scalar.extui (Scalar.cmpi .eq (BitVec.ofNat 32 (i 1).val) 0#32)) 0#32) = 1#1

theorem hcond4_0 : ∀ t : Fin cfg4.N, cond4_0 (grid4.coords t) ↔ t.val % 8 = 0 :=
  (by decide +kernel : ∀ t : Fin grid4.N, cond4_0 (grid4.coords t) ↔ t.val % 8 = 0)

abbrev cond4_1 (i : grid4.Coords) : Prop := k4_cond2 i = 1#1

theorem hcond4_1 : ∀ t : Fin cfg4.N, cond4_1 (grid4.coords t) ↔ t.val % 8 = 7 :=
  (by decide +kernel : ∀ t : Fin grid4.N, cond4_1 (grid4.coords t) ↔ t.val % 8 = 7)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel

theorem idleAt4_4_A : ∀ t : Fin cfg4.N, cond4_0 (grid4.coords t) → ¬cond4_1 (grid4.coords t) → cfg4.idle 4 (grid4.coords t) = true := by decide +kernel
theorem noFlush4_4_A : ∀ t : Fin cfg4.N, cond4_0 (grid4.coords t) → ¬cond4_1 (grid4.coords t) → (cfg4.win 4).flush t = false := by decide +kernel

theorem idleAt4_4_B : ∀ t : Fin cfg4.N, ¬cond4_0 (grid4.coords t) → ¬cond4_1 (grid4.coords t) → cfg4.idle 4 (grid4.coords t) = true := by decide +kernel
theorem noFlush4_4_B : ∀ t : Fin cfg4.N, ¬cond4_0 (grid4.coords t) → ¬cond4_1 (grid4.coords t) → (cfg4.win 4).flush t = false := by decide +kernel

theorem liveAt4_4_C : ∀ t : Fin cfg4.N, ¬cond4_0 (grid4.coords t) → cond4_1 (grid4.coords t) → cfg4.idle 4 (grid4.coords t) = false := by decide +kernel

abbrev VO4_4 : View sig .tc .vmem S1024x64 .f32 := (Memref.whole cc4_stg4_0 : Memref sig .tc .vmem S1024x64 .f32).view
abbrev ms4_0 (t : Fin cfg4.N) : Memref sig .tc .vmem S1024x1024 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x1024 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1024x64 .f32 := win4_4.stage (cfg4.slots t 4)
abbrev hs4_4 (t : Fin cfg4.N) : (ms4_4 t).IsWhole := hstage4_4 ((cfg4.slots t 4).cast nbuf4_4)

abbrev scM4_0 : Memref sig .tc .vmem S1024x64 .f32 := Memref.whole cc4_scratch0
abbrev VS4_0 : View sig .tc .vmem S1024x64 .f32 := scM4_0.view

theorem PhiA4_eq (c : Dev nD) :
    (Pipeline.ΦA spec4 c : sProp 𝕄)
      = iprop(iprop((∃ d, owns (c : Thread nD τ) scM4_0 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

section
variable (c : Dev nD) (i : grid4.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x64 .f32) (harg6 : arg6.IsWhole) (arg7 : Memref sig .tc .vmem S1024x64 .f32) (harg7 : arg7.IsWhole)

set_option maxHeartbeats 4000000 in

noncomputable def kernelRun4_A (hc0 : cond4_0 i) (hc1 : ¬cond4_1 i)
    (x0 : Vec F S1024x1024 .f32) (x1 : Vec F S1024x64 .f32) (x2 : Vec F S1024x1 .f32) (x3 : Vec F S1x1024 .f32) :
    Σ' (L4 : List (View.Piece (Elt F) S1024x64 .f32)), { LS0 : List (View.Piece (Elt F) S1024x64 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc4__propagate_kernel i arg2 harg2 arg3 harg3 arg4 harg4 arg5 harg5 arg6 harg6 arg7 harg7) K } := by
  refine ⟨[], ?_, fun xi4 E K => ?run⟩
  case run =>
    simp only [cc4__propagate_kernel_eq_skeleton]; unfold cc4__propagate_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in

noncomputable def kernelRun4_B (hc0 : ¬cond4_0 i) (hc1 : ¬cond4_1 i)
    (x0 : Vec F S1024x1024 .f32) (x1 : Vec F S1024x64 .f32) (x2 : Vec F S1024x1 .f32) (x3 : Vec F S1x1024 .f32) (xs0 : Vec F S1024x64 .f32) :
    Σ' (L4 : List (View.Piece (Elt F) S1024x64 .f32)), { LS0 : List (View.Piece (Elt F) S1024x64 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc4__propagate_kernel i arg2 harg2 arg3 harg3 arg4 harg4 arg5 harg5 arg6 harg6 arg7 harg7) K } := by
  refine ⟨[], ?_, fun xi4 E K => ?run⟩
  case run =>
    simp only [cc4__propagate_kernel_eq_skeleton]; unfold cc4__propagate_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in

noncomputable def kernelRun4_C (hc0 : ¬cond4_0 i) (hc1 : cond4_1 i)
    (x0 : Vec F S1024x1024 .f32) (x1 : Vec F S1024x64 .f32) (x2 : Vec F S1024x1 .f32) (x3 : Vec F S1x1024 .f32) (xs0 : Vec F S1024x64 .f32) :
    Σ' (L4 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc4__propagate_kernel i arg2 harg2 arg3 harg3 arg4 harg4 arg5 harg5 arg6 harg6 arg7 harg7) K } := by
  refine ⟨?_, ?_, fun E K => ?run⟩
  case run =>
    simp only [cc4__propagate_kernel_eq_skeleton]; unfold cc4__propagate_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS0

def out4_A_4 (hc0 : cond4_0 i) (hc1 : ¬cond4_1 i)
    (x0 : Vec F S1024x1024 .f32) (x1 : Vec F S1024x64 .f32) (x2 : Vec F S1024x1 .f32) (x3 : Vec F S1x1024 .f32) : Vec F S1024x64 .f32 :=
  VO4_4.read (Elt F) (VO4_4.writes (Elt F) VO4_4.junk (kernelRun4_A c i arg2 harg2 arg3 harg3 arg4 harg4 arg5 harg5 arg6 harg6 arg7 harg7 hc0 hc1 x0 x1 x2 x3).1)

theorem scover4_A_0 (hc0 : cond4_0 i) (hc1 : ¬cond4_1 i)
    (x0 : Vec F S1024x1024 .f32) (x1 : Vec F S1024x64 .f32) (x2 : Vec F S1024x1 .f32) (x3 : Vec F S1x1024 .f32) (y : S1024x64.Idx) :
    ∃ pc ∈ (kernelRun4_A c i arg2 harg2 arg3 harg3 arg4 harg4 arg5 harg5 arg6 harg6 arg7 harg7 hc0 hc1 x0 x1 x2 x3).2.1, y ∈ pc.1.set :=
  View.cover_of_tiledL (kernelRun4_A c i arg2 harg2 arg3 harg3 arg4 harg4 arg5 harg5 arg6 harg6 arg7 harg7 hc0 hc1 x0 x1 x2 x3).2.1 S1024x64.size (by sl_kernel_rfl) y

def sout4_A_0 (hc0 : cond4_0 i) (hc1 : ¬cond4_1 i)
    (x0 : Vec F S1024x1024 .f32) (x1 : Vec F S1024x64 .f32) (x2 : Vec F S1024x1 .f32) (x3 : Vec F S1x1024 .f32) : Vec F S1024x64 .f32 :=
  VS4_0.read (Elt F) (VS4_0.writes (Elt F) VS4_0.junk (kernelRun4_A c i arg2 harg2 arg3 harg3 arg4 harg4 arg5 harg5 arg6 harg6 arg7 harg7 hc0 hc1 x0 x1 x2 x3).2.1)

def out4_B_4 (hc0 : ¬cond4_0 i) (hc1 : ¬cond4_1 i)
    (x0 : Vec F S1024x1024 .f32) (x1 : Vec F S1024x64 .f32) (x2 : Vec F S1024x1 .f32) (x3 : Vec F S1x1024 .f32) (xs0 : Vec F S1024x64 .f32) : Vec F S1024x64 .f32 :=
  VO4_4.read (Elt F) (VO4_4.writes (Elt F) VO4_4.junk (kernelRun4_B c i arg2 harg2 arg3 harg3 arg4 harg4 arg5 harg5 arg6 harg6 arg7 harg7 hc0 hc1 x0 x1 x2 x3 xs0).1)

theorem scover4_B_0 (hc0 : ¬cond4_0 i) (hc1 : ¬cond4_1 i)
    (x0 : Vec F S1024x1024 .f32) (x1 : Vec F S1024x64 .f32) (x2 : Vec F S1024x1 .f32) (x3 : Vec F S1x1024 .f32) (xs0 : Vec F S1024x64 .f32) (y : S1024x64.Idx) :
    ∃ pc ∈ (kernelRun4_B c i arg2 harg2 arg3 harg3 arg4 harg4 arg5 harg5 arg6 harg6 arg7 harg7 hc0 hc1 x0 x1 x2 x3 xs0).2.1, y ∈ pc.1.set :=
  View.cover_of_tiledL (kernelRun4_B c i arg2 harg2 arg3 harg3 arg4 harg4 arg5 harg5 arg6 harg6 arg7 harg7 hc0 hc1 x0 x1 x2 x3 xs0).2.1 S1024x64.size (by sl_kernel_rfl) y

def sout4_B_0 (hc0 : ¬cond4_0 i) (hc1 : ¬cond4_1 i)
    (x0 : Vec F S1024x1024 .f32) (x1 : Vec F S1024x64 .f32) (x2 : Vec F S1024x1 .f32) (x3 : Vec F S1x1024 .f32) (xs0 : Vec F S1024x64 .f32) : Vec F S1024x64 .f32 :=
  VS4_0.read (Elt F) (VS4_0.writes (Elt F) VS4_0.junk (kernelRun4_B c i arg2 harg2 arg3 harg3 arg4 harg4 arg5 harg5 arg6 harg6 arg7 harg7 hc0 hc1 x0 x1 x2 x3 xs0).2.1)

theorem cover4_C_4 (hc0 : ¬cond4_0 i) (hc1 : cond4_1 i)
    (x0 : Vec F S1024x1024 .f32) (x1 : Vec F S1024x64 .f32) (x2 : Vec F S1024x1 .f32) (x3 : Vec F S1x1024 .f32) (xs0 : Vec F S1024x64 .f32) (y : S1024x64.Idx) :
    ∃ pc ∈ (kernelRun4_C c i arg2 harg2 arg3 harg3 arg4 harg4 arg5 harg5 arg6 harg6 arg7 harg7 hc0 hc1 x0 x1 x2 x3 xs0).1, y ∈ pc.1.set :=
  View.cover_of_tiledL (kernelRun4_C c i arg2 harg2 arg3 harg3 arg4 harg4 arg5 harg5 arg6 harg6 arg7 harg7 hc0 hc1 x0 x1 x2 x3 xs0).1 S1024x64.size (by sl_kernel_rfl) y

def out4_C_4 (hc0 : ¬cond4_0 i) (hc1 : cond4_1 i)
    (x0 : Vec F S1024x1024 .f32) (x1 : Vec F S1024x64 .f32) (x2 : Vec F S1024x1 .f32) (x3 : Vec F S1x1024 .f32) (xs0 : Vec F S1024x64 .f32) : Vec F S1024x64 .f32 :=
  VO4_4.read (Elt F) (VO4_4.writes (Elt F) VO4_4.junk (kernelRun4_C c i arg2 harg2 arg3 harg3 arg4 harg4 arg5 harg5 arg6 harg6 arg7 harg7 hc0 hc1 x0 x1 x2 x3 xs0).1)

theorem scover4_C_0 (hc0 : ¬cond4_0 i) (hc1 : cond4_1 i)
    (x0 : Vec F S1024x1024 .f32) (x1 : Vec F S1024x64 .f32) (x2 : Vec F S1024x1 .f32) (x3 : Vec F S1x1024 .f32) (xs0 : Vec F S1024x64 .f32) (y : S1024x64.Idx) :
    ∃ pc ∈ (kernelRun4_C c i arg2 harg2 arg3 harg3 arg4 harg4 arg5 harg5 arg6 harg6 arg7 harg7 hc0 hc1 x0 x1 x2 x3 xs0).2.1, y ∈ pc.1.set :=
  View.cover_of_tiledL (kernelRun4_C c i arg2 harg2 arg3 harg3 arg4 harg4 arg5 harg5 arg6 harg6 arg7 harg7 hc0 hc1 x0 x1 x2 x3 xs0).2.1 S1024x64.size (by sl_kernel_rfl) y

def sout4_C_0 (hc0 : ¬cond4_0 i) (hc1 : cond4_1 i)
    (x0 : Vec F S1024x1024 .f32) (x1 : Vec F S1024x64 .f32) (x2 : Vec F S1024x1 .f32) (x3 : Vec F S1x1024 .f32) (xs0 : Vec F S1024x64 .f32) : Vec F S1024x64 .f32 :=
  VS4_0.read (Elt F) (VS4_0.writes (Elt F) VS4_0.junk (kernelRun4_C c i arg2 harg2 arg3 harg3 arg4 harg4 arg5 harg5 arg6 harg6 arg7 harg7 hc0 hc1 x0 x1 x2 x3 xs0).2.1)

end

def outsAt4 (c : Dev nD) : (n : ℕ) → n < cfg4.N → Vec F S1024x64 .f32 × Vec F S1024x64 .f32
  | 0, hn => (out4_A_4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩))
  | n + 1, hn =>
    if h0 : (n + 1) % 8 = 0 then
      if h1 : (n + 1) % 8 = 7 then
        False.elim (by omega)
      else
        (out4_A_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩))
    else
      if h1 : (n + 1) % 8 = 7 then
        (out4_C_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2)
      else
        (out4_B_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2)

theorem outsAt4_A (c : Dev nD) (t : Fin cfg4.N) (h0 : t.val % 8 = 0) (h1 : ¬t.val % 8 = 7) :
    outsAt4 V c t.val t.isLt = (out4_A_4 c (grid4.coords t) (ms4_0 t) (hs4_0 t) (ms4_1 t) (hs4_1 t) (ms4_2 t) (hs4_2 t) (ms4_3 t) (hs4_3 t) (ms4_4 t) (hs4_4 t) scM4_0 (Memref.isWhole_whole _) ((hcond4_0 t).mpr h0) (fun h => h1 ((hcond4_1 t).mp h)) (iblk4 V c 0 t) (iblk4 V c 1 t) (iblk4 V c 2 t) (iblk4 V c 3 t), sout4_A_0 c (grid4.coords t) (ms4_0 t) (hs4_0 t) (ms4_1 t) (hs4_1 t) (ms4_2 t) (hs4_2 t) (ms4_3 t) (hs4_3 t) (ms4_4 t) (hs4_4 t) scM4_0 (Memref.isWhole_whole _) ((hcond4_0 t).mpr h0) (fun h => h1 ((hcond4_1 t).mp h)) (iblk4 V c 0 t) (iblk4 V c 1 t) (iblk4 V c 2 t) (iblk4 V c 3 t)) := by
  obtain ⟨n, hn⟩ := t
  cases n with
  | zero => exact rfl
  | succ n => exact (dif_pos h0).trans ((dif_neg h1).trans rfl)

theorem outsAt4_B (c : Dev nD) (t : Fin cfg4.N) (h0 : ¬t.val % 8 = 0) (h1 : ¬t.val % 8 = 7) :
    outsAt4 V c t.val t.isLt = (out4_B_4 c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 8 = 0) (h1 : t.val % 8 = 7) :
    outsAt4 V c t.val t.isLt = (out4_C_4 c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 8000000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  have hN : t.val < 64 := lt_of_lt_of_eq t.isLt (show cfg4.N = 64 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  by_cases h0 : t.val % 8 = 0
  · by_cases h1 : t.val % 8 = 7
    · exfalso; omega
    ·
      rw [Dat.leavesExact_idle (dat4 V c) 4 t (idleAt4_4_A t ((hcond4_0 t).mpr h0) (fun h => h1 ((hcond4_1 t).mp h))) (noFlush4_4_A t ((hcond4_0 t).mpr h0) (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, Hrest⟩, Hg⟩, Ho, ⟨%d0, H0⟩, ⟨%d1, H1⟩, ⟨%d2, H2⟩, ⟨%d3, H3⟩, ⟨%d4, H4⟩⟩
        iapply ((kernelRun4_A c (grid4.coords t) _ _ _ _ _ _ _ _ _ _ _ _ ((hcond4_0 t).mpr h0) (fun h => h1 ((hcond4_1 t).mp h)) (iblk4 V c 0 t) (iblk4 V c 1 t) (iblk4 V c 2 t) (iblk4 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover4_A_0 c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
      · rw [PhiS4_castSucc V c t, PhiS4_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((kernelRun4_A c (grid4.coords t) _ _ _ _ _ _ _ _ _ _ _ _ ((hcond4_0 t).mpr h0) (fun h => h1 ((hcond4_1 t).mp h)) (iblk4 V c 0 t) (iblk4 V c 1 t) (iblk4 V c 2 t) (iblk4 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover4_A_0 c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    ·
      rw [show (dat4 V c).leavesExact 4 t = owns (c : Thread nD τ) (ms4_4 t) fullShare ((dat4 V c).after 4 t) from by
        unfold Dat.leavesExact; rw [liveAt4_4_C t (fun h => h0 ((hcond4_0 t).mp h)) ((hcond4_1 t).mpr h1)], after4_4]
      rw [outsAt4_C V c t h0 h1]
      unfold out4_C_4 sout4_C_0; (try dsimp only)
      by_cases hz : t.val = 0
      · exfalso; have hN : t.val < 64 := lt_of_lt_of_eq t.isLt (show cfg4.N = 64 from N_4); omega
      · rw [PhiS4_castSucc V c t, PhiS4_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((kernelRun4_C c (grid4.coords t) _ _ _ _ _ _ _ _ _ _ _ _ (fun h => h0 ((hcond4_0 t).mp h)) ((hcond4_1 t).mpr h1) (iblk4 V c 0 t) (iblk4 V c 1 t) (iblk4 V c 2 t) (iblk4 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover4_C_0 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover4_C_4 c _ _ _ _ _ _ _ _ _ _ _ _ _ _ _ _ _ _ _ _)
    ·
      rw [Dat.leavesExact_idle (dat4 V c) 4 t (idleAt4_4_B t (fun h => h0 ((hcond4_0 t).mp h)) (fun h => h1 ((hcond4_1 t).mp h))) (noFlush4_4_B t (fun h => h0 ((hcond4_0 t).mp h)) (fun h => h1 ((hcond4_1 t).mp h)))]
      rw [outsAt4_B V c t h0 h1]
      unfold sout4_B_0; (try dsimp only)
      by_cases hz : t.val = 0
      · exfalso; have hN : t.val < 64 := lt_of_lt_of_eq t.isLt (show cfg4.N = 64 from N_4); omega
      · rw [PhiS4_castSucc V c t, PhiS4_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((kernelRun4_B c (grid4.coords t) _ _ _ _ _ _ _ _ _ _ _ _ (fun h => h0 ((hcond4_0 t).mp h)) (fun h => h1 ((hcond4_1 t).mp h)) (iblk4 V c 0 t) (iblk4 V c 1 t) (iblk4 V c 2 t) (iblk4 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover4_B_0 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hrest⟩, Hg⟩
  isplitl [HS0 Hrest]
  · isplitl [HS0]
    · iexists _; iexact HS0
    iexact Hrest
  iexact Hg

theorem hout4 (c : Dev nD) : (dat4 V c).Φ (Fin.last cfg4.N) ⊢ Pipeline.ΦA spec4 c :=
  Phi_out4 V c _ (by rw [Fin.val_last]; have : cfg4.N = 64 := N_4; omega)

end Cert.KernelIdeal.Hand

end
-- ==== Proof.KI.Run.lean ====
import proofs.«417937_j15461882266039_1_alg».proof.Proof.KI.Deg0
import proofs.«417937_j15461882266039_1_alg».proof.Proof.KI.Lin1
import proofs.«417937_j15461882266039_1_alg».proof.Proof.KI.Prop2
import proofs.«417937_j15461882266039_1_alg».proof.Proof.KI.Lin3
import proofs.«417937_j15461882266039_1_alg».proof.Proof.KI.Prop4
import proofs.«417937_j15461882266039_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Wv0 : Dev nD → Valuation τ sig (Elt F) := fun c b => (s₀ m ρ).mem ((c : Dev nD), b)

abbrev Vr0 : (c : Dev nD) → (b : Ref sig .tc) → Buf (Elt F) ((c : Thread nD τ).loc b) := fun c b => Wv0 m ρ c b

def Wv1 (c : Dev nD) : Valuation τ sig (Elt F) :=
  Pipeline.withArrays spec0 c (Wv0 m ρ c) fun w => (dat0 (Vr0 m ρ) c).arrAt w cfg0.N
theorem Wv1_arr (c : Dev nD) (w : Fin cfg0.W) :
    Wv1 m ρ c (Proc.devRef .tc (Pipeline.arrRef spec0 w)) = (dat0 (Vr0 m ρ) c).arrAt w cfg0.N := by
  unfold Wv1; exact Pipeline.withArrays_arr spec0 launch0.win.arr_inj c _ _ w
theorem Wv1_of_ne (c : Dev nD) (b : Ref sig .tc) (hb : ∀ w, Pipeline.arrRef spec0 w ≠ b) :
    Wv1 m ρ c (Proc.devRef .tc b) = Wv0 m ρ c (Proc.devRef .tc b) := by
  unfold Wv1; exact Pipeline.withArrays_of_ne spec0 c _ _ b hb

abbrev Wv2 : Dev nD → Valuation τ sig (Elt F) := fun c => StableHlo.after hostOps1 (Wv1 m ρ c)
abbrev Vr2 : (c : Dev nD) → (b : Ref sig .tc) → Buf (Elt F) ((c : Thread nD τ).loc b) := fun c b => Wv2 m ρ c b

def Wv3 (c : Dev nD) : Valuation τ sig (Elt F) :=
  Pipeline.withArrays spec1 c (Wv2 m ρ c) fun w => (dat1 (Vr2 m ρ) c).arrAt w cfg1.N
theorem Wv3_arr (c : Dev nD) (w : Fin cfg1.W) :
    Wv3 m ρ c (Proc.devRef .tc (Pipeline.arrRef spec1 w)) = (dat1 (Vr2 m ρ) c).arrAt w cfg1.N := by
  unfold Wv3; exact Pipeline.withArrays_arr spec1 launch1.win.arr_inj c _ _ w
theorem Wv3_of_ne (c : Dev nD) (b : Ref sig .tc) (hb : ∀ w, Pipeline.arrRef spec1 w ≠ b) :
    Wv3 m ρ c (Proc.devRef .tc b) = Wv2 m ρ c (Proc.devRef .tc b) := by
  unfold Wv3; exact Pipeline.withArrays_of_ne spec1 c _ _ b hb

abbrev Vr3 : (c : Dev nD) → (b : Ref sig .tc) → Buf (Elt F) ((c : Thread nD τ).loc b) := fun c b => Wv3 m ρ c b

def Wv4 (c : Dev nD) : Valuation τ sig (Elt F) :=
  Pipeline.withArrays spec2 c (Wv3 m ρ c) fun w => (dat2 (Vr3 m ρ) c).arrAt w cfg2.N
theorem Wv4_arr (c : Dev nD) (w : Fin cfg2.W) :
    Wv4 m ρ c (Proc.devRef .tc (Pipeline.arrRef spec2 w)) = (dat2 (Vr3 m ρ) c).arrAt w cfg2.N := by
  unfold Wv4; exact Pipeline.withArrays_arr spec2 launch2.win.arr_inj c _ _ w
theorem Wv4_of_ne (c : Dev nD) (b : Ref sig .tc) (hb : ∀ w, Pipeline.arrRef spec2 w ≠ b) :
    Wv4 m ρ c (Proc.devRef .tc b) = Wv3 m ρ c (Proc.devRef .tc b) := by
  unfold Wv4; exact Pipeline.withArrays_of_ne spec2 c _ _ b hb

abbrev Vr4 : (c : Dev nD) → (b : Ref sig .tc) → Buf (Elt F) ((c : Thread nD τ).loc b) := fun c b => Wv4 m ρ c b

def Wv5 (c : Dev nD) : Valuation τ sig (Elt F) :=
  Pipeline.withArrays spec3 c (Wv4 m ρ c) fun w => (dat3 (Vr4 m ρ) c).arrAt w cfg3.N
theorem Wv5_arr (c : Dev nD) (w : Fin cfg3.W) :
    Wv5 m ρ c (Proc.devRef .tc (Pipeline.arrRef spec3 w)) = (dat3 (Vr4 m ρ) c).arrAt w cfg3.N := by
  unfold Wv5; exact Pipeline.withArrays_arr spec3 launch3.win.arr_inj c _ _ w
theorem Wv5_of_ne (c : Dev nD) (b : Ref sig .tc) (hb : ∀ w, Pipeline.arrRef spec3 w ≠ b) :
    Wv5 m ρ c (Proc.devRef .tc b) = Wv4 m ρ c (Proc.devRef .tc b) := by
  unfold Wv5; exact Pipeline.withArrays_of_ne spec3 c _ _ b hb

abbrev Vr5 : (c : Dev nD) → (b : Ref sig .tc) → Buf (Elt F) ((c : Thread nD τ).loc b) := fun c b => Wv5 m ρ c b

def Wv6 (c : Dev nD) : Valuation τ sig (Elt F) :=
  Pipeline.withArrays spec4 c (Wv5 m ρ c) fun w => (dat4 (Vr5 m ρ) c).arrAt w cfg4.N
theorem Wv6_arr (c : Dev nD) (w : Fin cfg4.W) :
    Wv6 m ρ c (Proc.devRef .tc (Pipeline.arrRef spec4 w)) = (dat4 (Vr5 m ρ) c).arrAt w cfg4.N := by
  unfold Wv6; exact Pipeline.withArrays_arr spec4 launch4.win.arr_inj c _ _ w
theorem Wv6_of_ne (c : Dev nD) (b : Ref sig .tc) (hb : ∀ w, Pipeline.arrRef spec4 w ≠ b) :
    Wv6 m ρ c (Proc.devRef .tc b) = Wv5 m ρ c (Proc.devRef .tc b) := by
  unfold Wv6; exact Pipeline.withArrays_of_ne spec4 c _ _ b hb

abbrev Wv7 : Dev nD → Valuation τ sig (Elt F) := fun c => StableHlo.after hostOps5 (Wv6 m ρ c)

abbrev admAll : (p : Fin 5) → (pcfgs (F := F) p).Adm := fun p => (cfgs p).toPCfg_adm

def allDats : (p : Fin 5) → (c : Dev nD) → Dat τ (Elt F) Unit ℕ (UR sig nD τ) ℕ (Pipeline.pin (pcfgs (F := F)) admAll p) c
  | ⟨0, _⟩ => fun c => dat0 (Vr0 m ρ) c
  | ⟨1, _⟩ => fun c => dat1 (Vr2 m ρ) c
  | ⟨2, _⟩ => fun c => dat2 (Vr3 m ρ) c
  | ⟨3, _⟩ => fun c => dat3 (Vr4 m ρ) c
  | ⟨4, _⟩ => fun c => dat4 (Vr5 m ρ) c
abbrev vars0 : Variants := Variants.none

abbrev noLev : GSem nD τ sig → Finset Unit := fun _ => ∅
abbrev lev0 : GSem nD τ sig → Unit → ℕ := fun _ _ => 0

abbrev Rest (c : Dev nD) : sProp 𝕄 := iprop((∃ r, prngReg c r) ∗ ∃ W, owes (c : Thread nD τ) (0 : CellTallies nD τ sig Unit) W)

abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vars0 noLev lev0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

abbrev lastState (c : Dev nD) : sProp 𝕄 := iprop(StableHlo.held (c : Thread nD τ) (Pipeline.ucRefs τ sig) (Wv7 m ρ c) ∗ ∃ r, prngReg c r)

theorem phiA_in {gr W : Nat} (win : Fin W → Pipeline.WinSpec sig gr) (c : Dev nD) (P : sProp 𝕄) :
    (iprop((∃ r, prngReg c r) ∗ P ∗ Pipeline.scopedRest win c) : sProp 𝕄) ⊢ Pipeline.ΦA win c := by
  unfold Pipeline.ΦA
  iintro ⟨Hp, -, Hr⟩
  isplitl [Hr]; · iexact Hr
  iexact Hp

theorem phiA_out {gr W : Nat} (win : Fin W → Pipeline.WinSpec sig gr) (c : Dev nD) :
    (Pipeline.ΦA win c : sProp 𝕄) ⊢ iprop((∃ r, prngReg c r) ∗ BI.emp ∗ Pipeline.scopedRest win c) := by
  unfold Pipeline.ΦA
  iintro ⟨Hr, Hp⟩
  isplitl [Hp]; · iexact Hp
  isplitr; · iempintro
  iexact Hr

abbrev Vr (W : Dev nD → Valuation τ sig (Elt F)) : (c : Dev nD) → (b : Ref sig .tc) → Buf (Elt F) ((c : Thread nD τ).loc b) :=
  fun c b => W c b

set_option backward.isDefEq.respectTransparency.types false in
-- one region as a segment of @main: it changes its own arrays and nothing else
def regionOf {p : Fin 5} (L : Pipeline.LaunchFacts (nD := nD) (τ := τ) cfgs p) (W : Dev nD → Valuation τ sig (Elt F))
    (hbody : ∀ c, Pipeline.BodyObligationLoose (allDats m ρ p c) defs₀ vars0 () Set.univ)
    (howed : ∀ c t, (allDats m ρ p c).owed t = 0) (hrec : ∀ c x, x ∈ (allDats m ρ p c).recorded 0)
    (hq : ∀ c w, (allDats m ρ p c).q w = fullShare)
    (hA : ∀ c w, (allDats m ρ p c).A w = Vr W c (Pipeline.arrRef (cfgs p).spec w))
    (hΦi : ∀ c, (Pipeline.ΦA (cfgs p).spec c : sProp 𝕄) ⊢ (allDats m ρ p c).Φ 0)
    (hΦo : ∀ c, (allDats m ρ p c).Φ (Fin.last _) ⊢ (Pipeline.ΦA (cfgs p).spec c : sProp 𝕄)) :
    Pipeline.RegionSeg (pcfgs (F := F)) admAll (allDats m ρ) () defs₀ vars0 noLev lev0 p where
  win := L.win.to₀
  block_pos := L.block_pos
  stage_whole := L.stage_whole
  K := PEmpty
  osem k := k.elim
  ho := Pipeline.OwnSemFacts.none _
  hbody := hbody
  hwaits := Pipeline.hwaits_of_owed_zero _ _ _ _ noLev lev0 p howed
  pre c := iprop(StableHlo.held (c : Thread nD τ) (Pipeline.ucRefs τ sig) (W c) ∗ Rest c)
  post c := iprop(StableHlo.held (c : Thread nD τ) (Pipeline.ucRefs τ sig) (Pipeline.withArrays (cfgs p).spec c (W c) fun w => (allDats m ρ p c).arrAt w (cfgs p).N) ∗ Rest c)
  X c := iprop(∃ r, prngReg c r)
  Y c := iprop(∃ r, prngReg c r)
  Z c := Pipeline.unscopedRest (Ix := Unit) (Name := ℕ) (U := UR sig nD τ) (Lvl := ℕ) (cfgs p).spec c (Vr W c)
  hentry c := by
    rw [Pipeline.ownSems0_none]
    have hsplit := Pipeline.arrays_of_unscopedBufs (p := p) (pcfgs (F := F)) admAll (allDats m ρ) L.win L.arr_whole c
      ((allDats m ρ p c).share_full (hq c)) (Vr W c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun x _ => Or.inl (hrec c x)
      iexact HO
    isplitl [Hp]; · iexact Hp
    iexact Hrest
  hin c := (phiA_in _ c _).trans (hΦi c)
  hout c := by
    rw [Pipeline.ownSems0_none]
    exact (hΦo c).trans (phiA_out _ c)
  hexit c := by
    have hjoin := Pipeline.unscopedBufs_of_arrays (p := p) (pcfgs (F := F)) admAll (Ix := Unit) (Name := ℕ) (U := UR sig nD τ) (Lvl := ℕ)
      L.win L.arr_whole c (allDats m ρ) ((allDats m ρ p c).share_full (hq c))
      (Vr W c) (fun b => (Pipeline.withArrays (cfgs p).spec c (W c) fun w => (allDats m ρ p c).arrAt w (cfgs p).N) b) ((allDats m ρ p c).arrAt · (cfgs p).N)
      (fun w => (Pipeline.withArrays_arr (cfgs p).spec L.win.arr_inj c (W c) (fun w => (allDats m ρ p c).arrAt w (cfgs p).N) w).symm)
      (fun b hb => Pipeline.withArrays_of_ne (cfgs p).spec c (W c) (fun w => (allDats m ρ p c).arrAt w (cfgs p).N) b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

set_option backward.isDefEq.respectTransparency.types false in
abbrev allSegs : List (Pipeline.Seg (pcfgs (F := F)) admAll (allDats m ρ) () defs₀ vars0 noLev lev0) :=
  [ .region (regionOf m ρ launch0 (Wv0 m ρ) (fun c => (body_obligation0 (Vr0 m ρ) c).loose) (fun _ _ => rfl) (fun _ _ => trivial) (fun _ _ => rfl)
      (A_eq0 (Vr0 m ρ)) (hin0 (Vr0 m ρ)) (hout0 (Vr0 m ρ))),
    .host (hostSeg hostOps1 hostOps1_sub hostOps1_fresh (Wv1 m ρ)),
    .region (regionOf m ρ launch1 (Wv2 m ρ) (fun c => (body_obligation1 (Vr2 m ρ) c).loose) (fun _ _ => rfl) (fun _ _ => trivial) (fun _ _ => rfl)
      (A_eq1 (Vr2 m ρ)) (fun _ => .rfl) (fun _ => .rfl)),
    .region (regionOf m ρ launch2 (Wv3 m ρ) (fun c => (body_obligation2 (Vr3 m ρ) c).loose) (fun _ _ => rfl) (fun _ _ => trivial) (fun _ _ => rfl)
      (A_eq2 (Vr3 m ρ)) (hin2 (Vr3 m ρ)) (hout2 (Vr3 m ρ))),
    .region (regionOf m ρ launch3 (Wv4 m ρ) (fun c => (body_obligation3 (Vr4 m ρ) c).loose) (fun _ _ => rfl) (fun _ _ => trivial) (fun _ _ => rfl)
      (A_eq3 (Vr4 m ρ)) (fun _ => .rfl) (fun _ => .rfl)),
    .region (regionOf m ρ launch4 (Wv5 m ρ) (fun c => (body_obligation4 (Vr5 m ρ) c).loose) (fun _ _ => rfl) (fun _ _ => trivial) (fun _ _ => rfl)
      (A_eq4 (Vr5 m ρ)) (hin4 (Vr5 m ρ)) (hout4 (Vr5 m ρ))),
    .host (hostSeg hostOps5 hostOps5_sub hostOps5_fresh (Wv6 m ρ)) ]
theorem main_run (c : Dev nD) : main (F := F) c = Pipeline.Seg.run (allSegs m ρ) := (main_chain c).trans (by chain_rfl)

set_option backward.isDefEq.respectTransparency.types false in

-- every weakly fair execution ends, nothing faulting, with each buffer of @main at the last contents `Wv7`
theorem run_all : θ_run defs (onTc (τ := τ) (main (F := F))) ⟨m, fun _ => 0, ρ⟩ (fun r => ∀ c : Dev nD,
      ∀ b ∈ Pipeline.ucRefs τ sig, r.2.mem (((c : Thread nD τ)).1, b) = Wv7 m ρ c b) :=
  Pipeline.θ_run_regions_kit (pcfgs (F := F)) admAll (allDats m ρ) () cellOf_inj emb₁ defs₀ vars0 noLev lev0 m ρ main (allSegs m ρ)
    (fun c Q => by rw [main_run m ρ c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wv0 m ρ c) ∗ Rest c)) (Tₙ := lastState m ρ)
    (hch := ⟨fun _ => .rfl, fun _ => .rfl, fun _ => .rfl, fun _ => .rfl, fun _ => .rfl, fun _ => .rfl, fun _ => .rfl, fun c =>
      show (iprop(StableHlo.held (c : Thread nD τ) (Pipeline.ucRefs τ sig) (Wv7 m ρ c) ∗ Rest c) : sProp 𝕄)
          ⊢ iprop(lastState m ρ c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach noLev lev0 fun c => ?_
      rw [show unscopedBufs c (fun b => m ((c : Thread nD τ).loc b)) = StableHlo.held (c : Thread nD τ) (Pipeline.ucRefs τ sig) (Wv0 m ρ c)
        from Pipeline.unscopedBufs_held c (Wv0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wv7 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wv7 m ρ c) s')
      isplitl [Hh] <;> iassumption)
    (hQ := fun s h c => h c)

end Cert.KernelIdeal.Hand

end
-- ==== Proof.KI.Keep.lean ====
import proofs.«417937_j15461882266039_1_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem Wv1_keep (c : Dev nD) (b : Ref sig .tc) (hb : b ≠ main_v0) :
    Wv1 m ρ c (Proc.devRef .tc b) = Wv0 m ρ c (Proc.devRef .tc b) := by
  by_cases h : ∃ w, Pipeline.arrRef spec0 w = b
  · obtain ⟨w, rfl⟩ := h
    fin_cases w
    · exact (Wv1_arr m ρ c 0).trans (((dat0 (Vr0 m ρ) c).arrAt_in 0 rfl _).trans (A_eq0 (Vr0 m ρ) c 0))
    · exact absurd rfl hb
  · exact Wv1_of_ne m ρ c b fun w e => h ⟨w, e⟩

theorem Wv2_keep (c : Dev nD) (b : Ref sig .tc) (hb : b ∉ hostOps1_W) :
    Wv2 m ρ c (Proc.devRef .tc b) = Wv1 m ρ c (Proc.devRef .tc b) :=
  StableHlo.after_of_writes_sub hostOps1 _ hostOps1_writes hb

theorem Wv3_keep (c : Dev nD) (b : Ref sig .tc) (hb : b ≠ main_v4) :
    Wv3 m ρ c (Proc.devRef .tc b) = Wv2 m ρ c (Proc.devRef .tc b) := by
  by_cases h : ∃ w, Pipeline.arrRef spec1 w = b
  · obtain ⟨w, rfl⟩ := h
    fin_cases w
    · exact (Wv3_arr m ρ c 0).trans (((dat1 (Vr2 m ρ) c).arrAt_in 0 rfl _).trans (A_eq1 (Vr2 m ρ) c 0))
    · exact (Wv3_arr m ρ c 1).trans (((dat1 (Vr2 m ρ) c).arrAt_in 1 rfl _).trans (A_eq1 (Vr2 m ρ) c 1))
    · exact (Wv3_arr m ρ c 2).trans (((dat1 (Vr2 m ρ) c).arrAt_in 2 rfl _).trans (A_eq1 (Vr2 m ρ) c 2))
    · exact absurd rfl hb
  · exact Wv3_of_ne m ρ c b fun w e => h ⟨w, e⟩

theorem Wv4_keep (c : Dev nD) (b : Ref sig .tc) (hb : b ≠ main_v5) :
    Wv4 m ρ c (Proc.devRef .tc b) = Wv3 m ρ c (Proc.devRef .tc b) := by
  by_cases h : ∃ w, Pipeline.arrRef spec2 w = b
  · obtain ⟨w, rfl⟩ := h
    fin_cases w
    · exact (Wv4_arr m ρ c 0).trans (((dat2 (Vr3 m ρ) c).arrAt_in 0 rfl _).trans (A_eq2 (Vr3 m ρ) c 0))
    · exact (Wv4_arr m ρ c 1).trans (((dat2 (Vr3 m ρ) c).arrAt_in 1 rfl _).trans (A_eq2 (Vr3 m ρ) c 1))
    · exact (Wv4_arr m ρ c 2).trans (((dat2 (Vr3 m ρ) c).arrAt_in 2 rfl _).trans (A_eq2 (Vr3 m ρ) c 2))
    · exact (Wv4_arr m ρ c 3).trans (((dat2 (Vr3 m ρ) c).arrAt_in 3 rfl _).trans (A_eq2 (Vr3 m ρ) c 3))
    · exact absurd rfl hb
  · exact Wv4_of_ne m ρ c b fun w e => h ⟨w, e⟩

theorem Wv5_keep (c : Dev nD) (b : Ref sig .tc) (hb : b ≠ main_v6) :
    Wv5 m ρ c (Proc.devRef .tc b) = Wv4 m ρ c (Proc.devRef .tc b) := by
  by_cases h : ∃ w, Pipeline.arrRef spec3 w = b
  · obtain ⟨w, rfl⟩ := h
    fin_cases w
    · exact (Wv5_arr m ρ c 0).trans (((dat3 (Vr4 m ρ) c).arrAt_in 0 rfl _).trans (A_eq3 (Vr4 m ρ) c 0))
    · exact (Wv5_arr m ρ c 1).trans (((dat3 (Vr4 m ρ) c).arrAt_in 1 rfl _).trans (A_eq3 (Vr4 m ρ) c 1))
    · exact (Wv5_arr m ρ c 2).trans (((dat3 (Vr4 m ρ) c).arrAt_in 2 rfl _).trans (A_eq3 (Vr4 m ρ) c 2))
    · exact absurd rfl hb
  · exact Wv5_of_ne m ρ c b fun w e => h ⟨w, e⟩

theorem Wv6_keep (c : Dev nD) (b : Ref sig .tc) (hb : b ≠ main_v7) :
    Wv6 m ρ c (Proc.devRef .tc b) = Wv5 m ρ c (Proc.devRef .tc b) := by
  by_cases h : ∃ w, Pipeline.arrRef spec4 w = b
  · obtain ⟨w, rfl⟩ := h
    fin_cases w
    · exact (Wv6_arr m ρ c 0).trans (((dat4 (Vr5 m ρ) c).arrAt_in 0 rfl _).trans (A_eq4 (Vr5 m ρ) c 0))
    · exact (Wv6_arr m ρ c 1).trans (((dat4 (Vr5 m ρ) c).arrAt_in 1 rfl _).trans (A_eq4 (Vr5 m ρ) c 1))
    · exact (Wv6_arr m ρ c 2).trans (((dat4 (Vr5 m ρ) c).arrAt_in 2 rfl _).trans (A_eq4 (Vr5 m ρ) c 2))
    · exact (Wv6_arr m ρ c 3).trans (((dat4 (Vr5 m ρ) c).arrAt_in 3 rfl _).trans (A_eq4 (Vr5 m ρ) c 3))
    · exact absurd rfl hb
  · exact Wv6_of_ne m ρ c b fun w e => h ⟨w, e⟩

theorem Wv7_keep (c : Dev nD) (b : Ref sig .tc) (hb : b ∉ hostOps5_W) :
    Wv7 m ρ c (Proc.devRef .tc b) = Wv6 m ρ c (Proc.devRef .tc b) :=
  StableHlo.after_of_writes_sub hostOps5 _ hostOps5_writes hb

abbrev args : List (Ref sig .tc) := [main_arg0, main_arg1, main_arg2, main_arg3, main_arg4, main_arg5, main_arg6]

-- an argument is no region's output and no host operation's result, so all seven segments leave it alone
theorem Wv7_arg (c : Dev nD) (b : Ref sig .tc) (hb : b ∈ args) :
    Wv7 m ρ c (Proc.devRef .tc b) = m ((c : Thread nD τ).loc b) := by
  simp only [args, List.mem_cons, List.not_mem_nil, or_false] at hb
  rcases hb with rfl | rfl | rfl | rfl | rfl | rfl | rfl <;>
    exact (Wv7_keep m ρ c _ (by decide)).trans <| (Wv6_keep m ρ c _ (by decide)).trans <| (Wv5_keep m ρ c _ (by decide)).trans <|
      (Wv4_keep m ρ c _ (by decide)).trans <| (Wv3_keep m ρ c _ (by decide)).trans <| (Wv2_keep m ρ c _ (by decide)).trans <|
      (Wv1_keep m ρ c _ (by decide)).trans rfl

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem args_uc (b : Ref sig .tc) (hb : b ∈ args) : Proc.devRef .tc b ∈ Pipeline.ucRefs τ sig := by
  simp only [args, List.mem_cons, List.not_mem_nil, or_false] at hb
  rcases hb with rfl | rfl | rfl | rfl | rfl | rfl | rfl <;> exact mem_uc _ (by decide)

-- the run, read at the argument buffers only
theorem frame_all : θ_run defs (onTc (τ := τ) (main (F := F))) ⟨m, fun _ => 0, ρ⟩ (fun r => ∀ c : Dev nD, ∀ b ∈ args,
      r.2.mem ((c.tc : Thread nD τ).loc b) = m ((c.tc : Thread nD τ).loc b)) :=
  (θ_run defs _ _).mono (fun _ h c b hb => (h c _ (args_uc b hb)).trans (Wv7_arg m ρ c b hb)) (run_all m ρ)

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

def thr : EReal := Ideal.ofBits .f32 0x3F000000#32
def oneW : EReal := Ideal.ofBits .f32 0x3F800000#32

-- an entry above one half counts as 1, any other as 0
def bin (a : EReal) : EReal := (((Ideal.cmp .ogt a thr).toNat : ℝ) : EReal)

-- the binarized adjacency matrix with ones on its diagonal
def mask (adj : (⟨2, ![8192, 8192]⟩ : Shape).Idx → EReal) (r k : Fin 8192) : EReal :=
  if r = k then oneW else bin (adj (ix2 r k))

-- the reciprocal square root of a row sum of the mask
def deg (adj : (⟨2, ![8192, 8192]⟩ : Shape).Idx → EReal) (r : Fin 8192) : EReal :=
  Ideal.rsqrt (∑ k : Fin 8192, mask adj r k)

-- a linear layer: X · Wᵀ + b
def lin {n i o : Nat} (X : Fin n → Fin i → EReal) (W : Fin o → Fin i → EReal) (b : Fin o → EReal) (r : Fin n) (c : Fin o) : EReal :=
  (∑ k : Fin i, X r k * W c k) + b c

-- a propagation: max (Â · H) 0, with Â the mask weighted by `dr` on rows and `dc` on columns
def propWith {d : Nat} (adj : (⟨2, ![8192, 8192]⟩ : Shape).Idx → EReal) (dr dc : Fin 8192 → EReal)
    (H : Fin 8192 → Fin d → EReal) (r : Fin 8192) (c : Fin d) : EReal :=
  max (∑ k : Fin 8192, (dr r * mask adj r k * dc k) * H k c) 0

def prop {d : Nat} (adj : (⟨2, ![8192, 8192]⟩ : Shape).Idx → EReal) (H : Fin 8192 → Fin d → EReal) : Fin 8192 → Fin d → EReal :=
  propWith adj (deg adj) (deg adj) H

-- two layers, each a linear layer followed by a propagation
def net (adj : (⟨2, ![8192, 8192]⟩ : Shape).Idx → EReal) (X : Fin 8192 → Fin 512 → EReal) (W1 : Fin 128 → Fin 512 → EReal)
    (b1 : Fin 128 → EReal) (W2 : Fin 64 → Fin 128 → EReal) (b2 : Fin 64 → EReal) : Fin 8192 → Fin 64 → EReal :=
  prop adj (lin (prop adj (lin X W1 b1)) W2 b2)

def rowOf (w : BitVec 32) : Fin 8192 := ⟨w.toNat % 8192, Nat.mod_lt _ (by decide)⟩

-- the rows of the network's output that the indices name
def result (adj : (⟨2, ![8192, 8192]⟩ : Shape).Idx → EReal) (X : Fin 8192 → Fin 512 → EReal) (W1 : Fin 128 → Fin 512 → EReal)
    (b1 : Fin 128 → EReal) (W2 : Fin 64 → Fin 128 → EReal) (b2 : Fin 64 → EReal) (idx : Fin 1024 → BitVec 32) (i : Fin 1024) (q : Fin 64) : EReal :=
  net adj X W1 b1 W2 b2 (rowOf (idx i)) q

end Cert.Spec

end
-- ==== Proof.LibTakeFill.lean ====
import Idealize.ShloMosaic.Lib.Pipeline.Value
import Idealize.ShloMosaic.Lib.ValueIdx
import Idealize.ShloMosaic.Lib.Affine
import Idealize.ShloMosaic.PureOps.Reduce

noncomputable section

namespace Cert.LibTakeFill

open Idealize.ShloMosaic Idealize.ShloMosaic.ValueIdx

theorem foldl_andi_of_all {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 (f a) = 1#1 := by rw [h a (List.mem_cons_self ..)]; decide
    rw [List.foldl_cons, e]
    exact foldl_andi_of_all f l fun n hn => h n (List.mem_cons_of_mem _ hn)

theorem reduce_andi_of_all {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  rw [Host.reduce_eq_foldl, hinit]
  exact foldl_andi_of_all x _ fun n _ => hx n

theorem select_of_all_one {S : Shape} {α : Type} (M : IVec S 1) (G Fill : S.Idx → α) (hM : ∀ i, M i = 1#1) :
    select M G Fill = G :=
  funext fun i => by rw [select_apply, hM i, select_one]

theorem take_fill_eq {n d : Nat} {α : Type} (idx lo hi : IVec ⟨2, ![n, 1]⟩ 32) (one : IVec ⟨0, ![]⟩ 1)
    (hred : (⟨2, ![n, 1]⟩ : Shape).ReducesTo ([1] : List (Fin 2)) ⟨1, ![n]⟩) (hu : 0 < (⟨0, ![]⟩ : Shape).numel)
    (hb : (⟨1, ![n]⟩ : Shape).BroadcastsInDim ⟨2, ![n, d]⟩ ![0]) (G Fill : (⟨2, ![n, d]⟩ : Shape).Idx → α)
    (hlo : ∀ i, IntOp.cmpi .sge (idx i) (lo i) = 1#1) (hhi : ∀ i, IntOp.cmpi .sle (idx i) (hi i) = 1#1)
    (hone : one (Shape.Idx.first hu) = 1#1) :
    select (broadcastInDim ⟨2, ![n, d]⟩ ![0] hb
      (Host.reduce IntOp.andi (andi (cmpi .sge idx lo) (cmpi .sle idx hi)) one hred hu)) G Fill = G := by
  refine select_of_all_one _ _ _ fun i => ?_
  refine (broadcastInDim_apply _ hb _ i (ix1 (i 0)) (fun a => by
    match a with
    | ⟨0, _⟩ =>
      show (i 0).val = if n = 1 then 0 else (i 0).val
      have hi0 : (i 0).val < n := (i 0).isLt
      split
      · omega
      · rfl)).trans ?_
  refine reduce_andi_of_all _ _ hred hu (fun i' => ?_) hone _
  show IntOp.andi (IntOp.cmpi .sge (idx i') (lo i')) (IntOp.cmpi .sle (idx i') (hi i')) = 1#1
  rw [hlo i', hhi i']
  decide

theorem wrap_of_nonneg (w n : BitVec 32) (h : IntOp.cmpi .sge w 0#32 = 1#1) :
    Scalar.select (IntOp.cmpi .slt w 0#32) (IntOp.addi w n) w = w := by
  have h0 : IntOp.cmpi .slt w 0#32 = 0#1 := by
    refine eq_zero_of_ne_one fun e => ?_
    have h1 := IntOp.cmpi_sge.1 h
    have h2 := IntOp.cmpi_slt.1 e
    omega
  rw [h0, select_zero]

theorem sle_pred_of_slt (w n p : BitVec 32) (h : IntOp.cmpi .slt w n = 1#1) (hp : n.toInt = p.toInt + 1) :
    IntOp.cmpi .sle w p = 1#1 := by
  rw [IntOp.cmpi_sle]
  have h1 := IntOp.cmpi_slt.1 h
  omega

end Cert.LibTakeFill

end
-- ==== Proof.LibRowGather.lean ====
import Idealize.ShloMosaic.Lib.ValueIdx

noncomputable section

namespace Cert.LibRowGather

open Idealize.ShloMosaic Idealize.ShloMosaic.ValueIdx

variable {α : Type}

abbrev rowDims2 (N B R : Nat)
    (wf : GatherDims.WF ⟨2, ![N, B]⟩ ⟨2, ![R, 1]⟩ ⟨2, ![R, B]⟩ [1] [0] [] [0] [] 1 ![1, B]) :
    GatherDims ⟨2, ![N, B]⟩ ⟨2, ![R, 1]⟩ ⟨2, ![R, B]⟩ where
  offsetDims := [1]
  collapsedSliceDims := [0]
  operandBatchingDims := []
  startIndicesBatchingDims := []
  startIndexMap := [0]
  indexVectorDim := 1
  sliceSizes := ![1, B]
  wf := wf

theorem rowGather2_apply {N B R w : Nat} (hN : 0 < N)
    (wf : GatherDims.WF ⟨2, ![N, B]⟩ ⟨2, ![R, 1]⟩ ⟨2, ![R, B]⟩ [1] [0] [] [0] [] 1 ![1, B])
    (x : (⟨2, ![N, B]⟩ : Shape).Idx → α) (idx : IVec ⟨2, ![R, 1]⟩ w) (r : Fin R) (b : Fin B) :
    Host.gather (rowDims2 N B R wf) x idx (ix2 r b)
      = x (ix2 ⟨min (idx (ix2 r (0 : Fin 1))).toInt.toNat (N - 1), by omega⟩ b) := by
  unfold Host.gather
  congr 1
  funext ax
  refine Fin.ext ?_
  show (rowDims2 N B R wf).start (ix2 r b) idx ax + (rowDims2 N B R wf).batchCoord (ix2 r b) ax
    + (rowDims2 N B R wf).offCoord (ix2 r b) ax = _
  rw [GatherDims.batchCoord_eq_zero _ _ _ List.not_mem_nil, Nat.add_zero]
  match ax with
  | ⟨0, _⟩ =>
    rw [GatherDims.offCoord_eq_zero _ _ _ (fun h => ((GatherDims.mem_sKept _ _).mp h).1 (List.mem_singleton.mpr rfl)),
      Nat.add_zero]
    unfold GatherDims.start
    rw [dif_pos (show (⟨0, by decide⟩ : Fin 2) ∈ (rowDims2 N B R wf).startIndexMap from List.mem_singleton.mpr rfl)]
    have hsi : (rowDims2 N B R wf).siIdx (ix2 r b) ⟨List.idxOf (⟨0, by decide⟩ : Fin 2) (rowDims2 N B R wf).startIndexMap,
        List.idxOf_lt_length_iff.2 (List.mem_singleton.mpr rfl)⟩ = ix2 r (0 : Fin 1) := by
      funext c; refine Fin.ext ?_
      match c with
      | ⟨0, _⟩ => rfl
      | ⟨1, _⟩ => rfl
    rw [hsi]
    rfl
  | ⟨1, _⟩ =>
    unfold GatherDims.start
    rw [dif_neg (fun h => absurd (congrArg Fin.val (List.mem_singleton.mp h)) (Nat.succ_ne_zero _)), Nat.zero_add]
    rfl

end Cert.LibRowGather

end
-- ==== Proof.KI.Tail.lean ====
import proofs.«417937_j15461882266039_1_alg».proof.Proof.Gen.KernelIdeal.Launch
import proofs.«417937_j15461882266039_1_alg».proof.Proof.Spec
import proofs.«417937_j15461882266039_1_alg».proof.Proof.LibTakeFill
import proofs.«417937_j15461882266039_1_alg».proof.Proof.LibRowGather
import Idealize.ShloMosaic.Lib.StableHlo.Run
import Idealize.ShloMosaic.Lib.ValueLayout

noncomputable section

namespace Cert.KernelIdeal.HandValue

open Cert.KernelIdeal Cert.KernelIdeal.Gen
open Idealize.ShloMosaic Idealize.ShloMosaic.TcCoe Idealize.ShloMosaic.ValueIdx Idealize.SL.Sem

theorem host1_v1 (W : Valuation τ sig (Elt Ideal)) (k : Fin 8192) :
    (StableHlo.after hostOps1 W (Proc.devRef .tc main_v1) : S1x8192.Idx → EReal) (ix2 (0 : Fin 1) k)
      = (W (Proc.devRef .tc main_v0) : S8192x1.Idx → EReal) (ix2 k (0 : Fin 1)) := by
  have e : (StableHlo.after hostOps1 W (Proc.devRef .tc main_v1) : S1x8192.Idx → EReal)
      = transpose S1x8192 [1, 0] (W (Proc.devRef .tc main_v0) : S8192x1.Idx → EReal) transposes_S8192x1_S1x8192_1_0 := by
    after_results
  rw [e]
  exact transpose_ix2_apply _ _ _ _

theorem host1_v2 (W : Valuation τ sig (Elt Ideal)) (o : Fin 128) :
    (StableHlo.after hostOps1 W (Proc.devRef .tc main_v2) : S1x128.Idx → EReal) (ix2 (0 : Fin 1) o)
      = (W (Proc.devRef .tc main_arg3) : S128.Idx → EReal) (ix1 o) := by
  have e : (StableHlo.after hostOps1 W (Proc.devRef .tc main_v2) : S1x128.Idx → EReal)
      = shapeCast S1x128 (W (Proc.devRef .tc main_arg3) : S128.Idx → EReal) shapeCasts_S128_S1x128 := by
    after_results
    rfl
  rw [e]
  exact shapeCast_a_1a_apply _ _ _ _

theorem host1_v3 (W : Valuation τ sig (Elt Ideal)) (o : Fin 64) :
    (StableHlo.after hostOps1 W (Proc.devRef .tc main_v3) : S1x64.Idx → EReal) (ix2 (0 : Fin 1) o)
      = (W (Proc.devRef .tc main_arg5) : S64.Idx → EReal) (ix1 o) := by
  have e : (StableHlo.after hostOps1 W (Proc.devRef .tc main_v3) : S1x64.Idx → EReal)
      = shapeCast S1x64 (W (Proc.devRef .tc main_arg5) : S64.Idx → EReal) shapeCasts_S64_S1x64 := by
    after_results
    rfl
  rw [e]
  exact shapeCast_a_1a_apply _ _ _ _

def wrapIdx (a : IVec S1024 32) : IVec S1024 32 :=
  select (cmpi .slt a (broadcastInDim S1024 ![] bcast_S_S1024 (constantI S_ 32 0#32)))
    (addi a (broadcastInDim S1024 ![] bcast_S_S1024 (constantI S_ 32 8192#32))) a

def colIdx (a : IVec S1024 32) : IVec S1024x1 32 :=
  broadcastInDim S1024x1 ![0] bcast_S1024_S1024x1_0 (wrapIdx a)

theorem colIdx_apply (a : IVec S1024 32) (hlo : ∀ i, IntOp.cmpi .sge (a i) 0#32 = 1#1) (j : S1024x1.Idx) :
    colIdx a j = a (ix1 (j 0)) := by
  refine (broadcastInDim_apply _ bcast_S1024_S1024x1_0 _ j (ix1 (j 0)) (fun c => by
    match c with
    | ⟨0, _⟩ => rfl)).trans ?_
  exact Cert.LibTakeFill.wrap_of_nonneg _ _ (hlo _)

-- for an index in range the filling take and the clamping gather pick the same row
theorem take_entry (a : IVec S1024 32) (X : S8192x64.Idx → EReal)
    (hlo : ∀ i, IntOp.cmpi .sge (a i) 0#32 = 1#1) (hhi : ∀ i, IntOp.cmpi .slt (a i) 8192#32 = 1#1)
    (i : Fin 1024) (q : Fin 64) :
    select (broadcastInDim S1024x64 ![0] bcast_S1024_S1024x64_0
        (Host.reduce IntOp.andi
          (andi (cmpi .sge (colIdx a) (broadcastInDim S1024x1 ![] bcast_S_S1024x1 (constantI S_ 32 0#32)))
            (cmpi .sle (colIdx a) (broadcastInDim S1024x1 ![0, 1] bcast_S1x1_S1024x1_0_1
              (broadcastInDim S1x1 ![1] bcast_S1_S1x1_1 (constantI S1 32 8191#32)))))
          (constantI S_ 1 1#1) reducesTo_S1024x1_S1024_d1 h_S_))
      (Host.gather gather_S8192x64_S1024x1_S1024x64_1_0_n_n_0_1_164 X (colIdx a))
      (broadcastInDim S1024x64 ![] bcast_S_S1024x64 (constant (F := Ideal) S_ .f32 0x7FC00000#32)) (ix2 i q)
      = X (ix2 (Cert.Spec.rowOf (a (ix1 i))) q) := by
  rw [Cert.LibTakeFill.take_fill_eq (n := 1024) (d := 64) (colIdx a) _ _ (constantI S_ 1 1#1) reducesTo_S1024x1_S1024_d1 h_S_
    bcast_S1024_S1024x64_0 _ _
    (fun j => by rw [colIdx_apply a hlo j]; exact hlo _)
    (fun j => by
      rw [colIdx_apply a hlo j]
      exact Cert.LibTakeFill.sle_pred_of_slt _ 8192#32 _ (hhi _)
        (by show (8192#32 : BitVec 32).toInt = (8191#32 : BitVec 32).toInt + 1; decide))
    rfl]
  refine (Cert.LibRowGather.rowGather2_apply (N := 8192) (B := 64) (R := 1024) (by decide)
    gather_S8192x64_S1024x1_S1024x64_1_0_n_n_0_1_164_wf X (colIdx a) i q).trans ?_
  refine congrArg X (congrArg (fun r => ix2 r q) (Fin.ext ?_))
  show min (colIdx a (ix2 i (0 : Fin 1))).toInt.toNat (8192 - 1) = (a (ix1 i)).toNat % 8192
  rw [colIdx_apply a hlo]
  show min (a (ix1 i)).toInt.toNat (8192 - 1) = (a (ix1 i)).toNat % 8192
  have h1 := IntOp.cmpi_sge.1 (hlo (ix1 i))
  have h2 := IntOp.cmpi_slt.1 (hhi (ix1 i))
  have h0 : (0#32 : BitVec 32).toInt = 0 := by decide
  have h8 : (8192#32 : BitVec 32).toInt = 8192 := by decide
  have hw := (a (ix1 i)).isLt
  have hc := BitVec.toInt_eq_toNat_cond (a (ix1 i))
  rw [h0] at h1
  rw [h8] at h2
  split at hc <;> omega

theorem tail_value (W : Valuation τ sig (Elt Ideal))
    (hlo : ∀ i, IntOp.cmpi .sge ((W (Proc.devRef .tc main_arg6) : S1024.Idx → BitVec 32) i) 0#32 = 1#1)
    (hhi : ∀ i, IntOp.cmpi .slt ((W (Proc.devRef .tc main_arg6) : S1024.Idx → BitVec 32) i) 8192#32 = 1#1)
    (i : Fin 1024) (q : Fin 64) :
    (StableHlo.after hostOps5 W (Proc.devRef .tc main_v8) : S1024x64.Idx → EReal) (ix2 i q)
      = (W (Proc.devRef .tc main_v7) : S8192x64.Idx → EReal)
          (ix2 (Cert.Spec.rowOf ((W (Proc.devRef .tc main_arg6) : S1024.Idx → BitVec 32) (ix1 i))) q) := by
  have e : (StableHlo.after hostOps5 W (Proc.devRef .tc main_v8) : S1024x64.Idx → EReal)
      = select (broadcastInDim S1024x64 ![0] bcast_S1024_S1024x64_0
        (Host.reduce IntOp.andi
          (andi (cmpi .sge (colIdx (W (Proc.devRef .tc main_arg6) : S1024.Idx → BitVec 32)) (broadcastInDim S1024x1 ![] bcast_S_S1024x1 (constantI S_ 32 0#32)))
            (cmpi .sle (colIdx (W (Proc.devRef .tc main_arg6) : S1024.Idx → BitVec 32)) (broadcastInDim S1024x1 ![0, 1] bcast_S1x1_S1024x1_0_1
              (broadcastInDim S1x1 ![1] bcast_S1_S1x1_1 (constantI S1 32 8191#32)))))
          (constantI S_ 1 1#1) reducesTo_S1024x1_S1024_d1 h_S_))
      (Host.gather gather_S8192x64_S1024x1_S1024x64_1_0_n_n_0_1_164 (W (Proc.devRef .tc main_v7) : S8192x64.Idx → EReal)
        (colIdx (W (Proc.devRef .tc main_arg6) : S1024.Idx → BitVec 32)))
      (broadcastInDim S1024x64 ![] bcast_S_S1024x64 (constant (F := Ideal) S_ .f32 0x7FC00000#32)) := by
    after_results_simp
    rfl
  rw [e]
  exact take_entry _ _ hlo hhi i q

end Cert.KernelIdeal.HandValue

end
-- ==== Proof.KI.Lin1Value.lean ====
import proofs.«417937_j15461882266039_1_alg».proof.Proof.KI.Lin1
import proofs.«417937_j15461882266039_1_alg».proof.Proof.Spec
import Idealize.ShloMosaic.Lib.Pipeline.Value
import Idealize.ShloMosaic.Lib.ValueIdx
import Idealize.ShloMosaic.PureOps.Ideal.Laws
import Idealize.ShloMosaic.Lib.Tactic
set_option maxRecDepth 16384
noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

theorem lhs_lin1_0 (i : S2048x128.Idx) (q : dot_S2048x512_S512x128_S2048x128_1_0_0_1_n_n.contr.Idx) :
    (dot_S2048x512_S512x128_S2048x128_1_0_0_1_n_n.lhsIdx i q 0).val = (i 0).val := by
  unfold DotDims.lhsIdx
  rw [dif_neg (show ¬(0 : Fin S2048x512.rank) ∈ dot_S2048x512_S512x128_S2048x128_1_0_0_1_n_n.lhsBatch by decide), dif_pos (show (0 : Fin S2048x512.rank) ∈ dot_S2048x512_S512x128_S2048x128_1_0_0_1_n_n.lhsNonContracting by decide)]
  rfl
theorem lhs_lin1_1 (i : S2048x128.Idx) (q : dot_S2048x512_S512x128_S2048x128_1_0_0_1_n_n.contr.Idx) :
    (dot_S2048x512_S512x128_S2048x128_1_0_0_1_n_n.lhsIdx i q 1).val = (q ⟨0, by decide⟩).val :=
  dot_S2048x512_S512x128_S2048x128_1_0_0_1_n_n.lhsIdx_val_of_single rfl i q
theorem rhs_lin1_0 (i : S2048x128.Idx) (q : dot_S2048x512_S512x128_S2048x128_1_0_0_1_n_n.contr.Idx) :
    (dot_S2048x512_S512x128_S2048x128_1_0_0_1_n_n.rhsIdx i q 0).val = (q ⟨0, by decide⟩).val :=
  dot_S2048x512_S512x128_S2048x128_1_0_0_1_n_n.rhsIdx_val_of_single rfl i q
theorem rhs_lin1_1 (i : S2048x128.Idx) (q : dot_S2048x512_S512x128_S2048x128_1_0_0_1_n_n.contr.Idx) :
    (dot_S2048x512_S512x128_S2048x128_1_0_0_1_n_n.rhsIdx i q 1).val = (i 1).val := by
  unfold DotDims.rhsIdx
  rw [dif_neg (show ¬(1 : Fin S512x128.rank) ∈ dot_S2048x512_S512x128_S2048x128_1_0_0_1_n_n.rhsBatch by decide), dif_pos (show (1 : Fin S512x128.rank) ∈ dot_S2048x512_S512x128_S2048x128_1_0_0_1_n_n.rhsNonContracting by decide)]
  rfl

theorem mm1_apply (a : FVec Ideal S2048x512 .bf16) (b : FVec Ideal S512x128 .bf16) (p : Fin 2048) (q : Fin 128) :
    (matmul dot_S2048x512_S512x128_S2048x128_1_0_0_1_n_n none a b (constant S2048x128 .f32 0x00000000#32) : FVec Ideal S2048x128 .f32) (ix2 p q)
      = ∑ k : Fin 512, a (ix2 p k) * b (ix2 k q) := by
  show FloatOps.matmul dot_S2048x512_S512x128_S2048x128_1_0_0_1_n_n none a b (constant S2048x128 .f32 0x00000000#32) (ix2 p q) = _
  rw [Ideal.matmul_constant_zero_apply, ← Equiv.sum_comp (contrEquiv1 dot_S2048x512_S512x128_S2048x128_1_0_0_1_n_n 512 rfl rfl).symm]
  refine Finset.sum_congr rfl fun k _ => ?_
  have hk := contrEquiv1_symm_val dot_S2048x512_S512x128_S2048x128_1_0_0_1_n_n 512 rfl rfl k
  have el : dot_S2048x512_S512x128_S2048x128_1_0_0_1_n_n.lhsIdx (ix2 p q) ((contrEquiv1 dot_S2048x512_S512x128_S2048x128_1_0_0_1_n_n 512 rfl rfl).symm k) = ix2 p k := funext fun ax => Fin.ext (by
    match ax with
    | ⟨0, _⟩ => exact lhs_lin1_0 _ _
    | ⟨1, _⟩ => exact (lhs_lin1_1 _ _).trans hk)
  have er : dot_S2048x512_S512x128_S2048x128_1_0_0_1_n_n.rhsIdx (ix2 p q) ((contrEquiv1 dot_S2048x512_S512x128_S2048x128_1_0_0_1_n_n 512 rfl rfl).symm k) = ix2 k q := funext fun ax => Fin.ext (by
    match ax with
    | ⟨0, _⟩ => exact (rhs_lin1_0 _ _).trans hk
    | ⟨1, _⟩ => exact rhs_lin1_1 _ _)
  rw [el, er]

theorem pay1_apply (x0 : Vec Ideal S2048x512 .f32) (x1 : Vec Ideal S128x512 .f32) (x2 : Vec Ideal S1x128 .f32) (p : Fin 2048) (q : Fin 128) :
    k1_pay1 x0 x1 x2 (ix2 p q) = (∑ k : Fin 512, x0 (ix2 p k) * x1 (ix2 q k)) + x2 (ix2 0 q) := by
  have hb : (broadcastTo S2048x128 (shapeCast S1x128 x2 shapeCasts_S1x128_S1x128) broadcasts_S1x128_S2048x128 : FVec Ideal S2048x128 .f32) (ix2 p q) = x2 (ix2 0 q) := by
    rw [shapeCast_self]
    exact broadcastTo_apply x2 _ (ix2 p q) (ix2 0 q) (fun a => by match a with | ⟨0, _⟩ => rfl | ⟨1, _⟩ => rfl)
  have ht : ∀ k : Fin 512, (transpose S512x128 [1, 0] (truncf .bf16 x1 bitsLt_bf16_f32 : FVec Ideal S128x512 .bf16) transposes_S128x512_p1_0_S512x128 : FVec Ideal S512x128 .bf16) (ix2 k q) = x1 (ix2 q k) := fun k =>
    transpose_apply [1, 0] _ _ (ix2 k q) (ix2 q k) (fun b => by match b with | ⟨0, _⟩ => rfl | ⟨1, _⟩ => rfl)
  unfold k1_pay1
  refine (congrArg₂ (· + ·) (mm1_apply _ _ p q) hb).trans ?_
  refine congrArg (· + x2 (ix2 0 q)) (Finset.sum_congr rfl fun k _ => ?_)
  exact congrArg (x0 (ix2 p k) * ·) (ht k)

section Array
variable (V : (c : Dev nD) → (b : Ref sig .tc) → Buf (Elt Ideal) ((c : Thread nD τ).loc b))

abbrev xarr1 (c : Dev nD) : FVec Ideal S8192x512 .f32 := V c (Pipeline.arrRef spec1 0)
abbrev warr1 (c : Dev nD) : FVec Ideal S128x512 .f32 := V c (Pipeline.arrRef spec1 1)
abbrev barr1 (c : Dev nD) : FVec Ideal S1x128 .f32 := V c (Pipeline.arrRef spec1 2)

def G1 (c : Dev nD) : S8192x128.Idx → EReal := fun i =>
  Cert.Spec.lin (fun r k => xarr1 V c (ix2 r k)) (fun o k => warr1 V c (ix2 o k)) (fun o => barr1 V c (ix2 0 o)) (i 0) (i 1)

theorem hz1 : (![0, 0] : Fin 2 → Nat) = fun _ => 0 := funext fun a => by fin_cases a <;> rfl

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem xblk1_apply (c : Dev nD) (t : Fin cfg1.N) (y : S2048x512.Idx) (k : S8192x512.Idx)
    (hk0 : (k 0).val = t.val * 2048 + (y 0).val) (hk1 : (k 1).val = (y 1).val) :
    (iblk1 V c 0 t : Vec Ideal S2048x512 .f32) y = xarr1 V c k := by
  obtain ⟨e0, e1, -⟩ := idx_facts1 t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 2048 + 1 * (y 0).val = (k 0).val; omega
  | ⟨1, _⟩ => show win1_0.index t (1 : Fin 2) * 512 + 1 * (y 1).val = (k 1).val; omega

theorem wblk1_apply (c : Dev nD) (t : Fin cfg1.N) (y : S128x512.Idx) :
    (iblk1 V c 1 t : Vec Ideal S128x512 .f32) y = warr1 V c y := by
  obtain ⟨-, -, e0, e1, -⟩ := idx_facts1 t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 128 + 1 * (y 0).val = (y 0).val; omega
  | ⟨1, _⟩ => show win1_1.index t (1 : Fin 2) * 512 + 1 * (y 1).val = (y 1).val; omega

theorem bblk1_apply (c : Dev nD) (t : Fin cfg1.N) (y : S1x128.Idx) :
    (iblk1 V c 2 t : Vec Ideal S1x128 .f32) y = barr1 V c y := by
  obtain ⟨-, -, -, -, e0, e1, -⟩ := idx_facts1 t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

theorem flushed1_eq (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  unfold out1_3
  rw [View.canon_unit_zero hz1]
  simp only [View.ld_unit_zero (S := S2048x512) hz1, View.ld_unit_zero (S := S128x512) hz1, View.ld_unit_zero (S := S1x128) hz1]
  obtain ⟨-, -, -, -, -, -, e0, e1⟩ := idx_facts1 t
  funext j
  obtain ⟨p, q, rfl⟩ : ∃ (p : Fin 2048) (q : Fin 128), j = ix2 p q := ⟨j 0, j 1, eq_ix2 j⟩
  show k1_pay1 (iblk1 V c 0 t) (iblk1 V c 1 t) (iblk1 V c 2 t) (ix2 p q) = G1 V c (((cfg1.win 3).blk t).view.emb (ix2 p q))
  refine (pay1_apply (iblk1 V c 0 t) (iblk1 V c 1 t) (iblk1 V c 2 t) p q).trans ?_
  have hr : ((((cfg1.win 3).blk t).view.emb (ix2 p q)) 0).val = t.val * 2048 + p.val := by
    show win1_3.index t (0 : Fin 2) * 2048 + 1 * p.val = _; omega
  have hq : (((cfg1.win 3).blk t).view.emb (ix2 p q)) 1 = q := Fin.ext (by
    show win1_3.index t (1 : Fin 2) * 128 + 1 * q.val = _; omega)
  unfold G1 Cert.Spec.lin
  rw [hq]
  refine congrArg₂ (· + ·) (Finset.sum_congr rfl fun k _ => ?_) (bblk1_apply V c t (ix2 0 q))
  exact congrArg₂ (· * ·) (xblk1_apply V c t (ix2 p k) (ix2 ((((cfg1.win 3).blk t).view.emb (ix2 p q)) 0) k) hr rfl) (wblk1_apply V c t (ix2 q k))

theorem mem_blk1 (t : Fin cfg1.N) (i : S8192x128.Idx) :
    i ∈ ((cfg1.win 3).blk t).view.set ↔ ∀ a : Fin 2, win1_3.index t a * S2048x128.size a ≤ (i a).val ∧ (i a).val < win1_3.index t a * S2048x128.size a + S2048x128.size a := by
  show i ∈ ((View.whole main_v4).slice (win1_3.rect t)).set ↔ _
  rw [View.set_slice_whole, Rect.mem_set_unit]
  exact Iff.rfl

theorem cover1 (i : S8192x128.Idx) : ∃ t : Fin cfg1.N, (cfg1.win 3).flush t = true ∧ i ∈ ((cfg1.win 3).blk t).view.set := by
  have hi0 : (i 0).val < 8192 := (i 0).isLt
  have hi1 : (i 1).val < 128 := (i 1).isLt
  have hN : cfg1.N = 4 := N_1
  obtain ⟨t, ht⟩ : ∃ t : Fin cfg1.N, t.val = (i 0).val / 2048 := ⟨⟨(i 0).val / 2048, by rw [hN]; omega⟩, rfl⟩
  obtain ⟨-, -, -, -, -, -, e0, e1⟩ := idx_facts1 t
  refine ⟨t, flush1_3 t, ?_⟩
  rw [mem_blk1]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 128 ≤ (i 1).val ∧ (i 1).val < win1_3.index t (1 : Fin 2) * 128 + 128; omega

theorem final1_arr (c : Dev nD) : (dat1 V c).arrAt 3 cfg1.N = G1 V c :=
  (dat1 V c).arrAt_eq_of_cover 3 (G1 V c) (fun t _ => flushed1_eq V c t) (cover1)

-- each output entry is a row of the features against a row of the weights, plus the bias
theorem final1 (c : Dev nD) (r : Fin 8192) (q : Fin 128) :
    ((dat1 (F := Ideal) V c).arrAt 3 cfg1.N : S8192x128.Idx → EReal) (ix2 r q)
      = Cert.Spec.lin (fun r k => xarr1 V c (ix2 r k)) (fun o k => warr1 V c (ix2 o k)) (fun o => barr1 V c (ix2 0 o)) r q := by
  rw [final1_arr]
  rfl

end Array

end Cert.KernelIdeal.HandValue

end
-- ==== Proof.KI.Lin3Value.lean ====
import proofs.«417937_j15461882266039_1_alg».proof.Proof.KI.Lin3
import proofs.«417937_j15461882266039_1_alg».proof.Proof.Spec
import Idealize.ShloMosaic.Lib.Pipeline.Value
import Idealize.ShloMosaic.Lib.ValueIdx
import Idealize.ShloMosaic.PureOps.Ideal.Laws
import Idealize.ShloMosaic.Lib.Tactic
set_option maxRecDepth 16384
noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

theorem lhs_lin3_0 (i : S2048x64.Idx) (q : dot_S2048x128_S128x64_S2048x64_1_0_0_1_n_n.contr.Idx) :
    (dot_S2048x128_S128x64_S2048x64_1_0_0_1_n_n.lhsIdx i q 0).val = (i 0).val := by
  unfold DotDims.lhsIdx
  rw [dif_neg (show ¬(0 : Fin S2048x128.rank) ∈ dot_S2048x128_S128x64_S2048x64_1_0_0_1_n_n.lhsBatch by decide), dif_pos (show (0 : Fin S2048x128.rank) ∈ dot_S2048x128_S128x64_S2048x64_1_0_0_1_n_n.lhsNonContracting by decide)]
  rfl
theorem lhs_lin3_1 (i : S2048x64.Idx) (q : dot_S2048x128_S128x64_S2048x64_1_0_0_1_n_n.contr.Idx) :
    (dot_S2048x128_S128x64_S2048x64_1_0_0_1_n_n.lhsIdx i q 1).val = (q ⟨0, by decide⟩).val :=
  dot_S2048x128_S128x64_S2048x64_1_0_0_1_n_n.lhsIdx_val_of_single rfl i q
theorem rhs_lin3_0 (i : S2048x64.Idx) (q : dot_S2048x128_S128x64_S2048x64_1_0_0_1_n_n.contr.Idx) :
    (dot_S2048x128_S128x64_S2048x64_1_0_0_1_n_n.rhsIdx i q 0).val = (q ⟨0, by decide⟩).val :=
  dot_S2048x128_S128x64_S2048x64_1_0_0_1_n_n.rhsIdx_val_of_single rfl i q
theorem rhs_lin3_1 (i : S2048x64.Idx) (q : dot_S2048x128_S128x64_S2048x64_1_0_0_1_n_n.contr.Idx) :
    (dot_S2048x128_S128x64_S2048x64_1_0_0_1_n_n.rhsIdx i q 1).val = (i 1).val := by
  unfold DotDims.rhsIdx
  rw [dif_neg (show ¬(1 : Fin S128x64.rank) ∈ dot_S2048x128_S128x64_S2048x64_1_0_0_1_n_n.rhsBatch by decide), dif_pos (show (1 : Fin S128x64.rank) ∈ dot_S2048x128_S128x64_S2048x64_1_0_0_1_n_n.rhsNonContracting by decide)]
  rfl

theorem mm3_apply (a : FVec Ideal S2048x128 .bf16) (b : FVec Ideal S128x64 .bf16) (p : Fin 2048) (q : Fin 64) :
    (matmul dot_S2048x128_S128x64_S2048x64_1_0_0_1_n_n none a b (constant S2048x64 .f32 0x00000000#32) : FVec Ideal S2048x64 .f32) (ix2 p q)
      = ∑ k : Fin 128, a (ix2 p k) * b (ix2 k q) := by
  show FloatOps.matmul dot_S2048x128_S128x64_S2048x64_1_0_0_1_n_n none a b (constant S2048x64 .f32 0x00000000#32) (ix2 p q) = _
  rw [Ideal.matmul_constant_zero_apply, ← Equiv.sum_comp (contrEquiv1 dot_S2048x128_S128x64_S2048x64_1_0_0_1_n_n 128 rfl rfl).symm]
  refine Finset.sum_congr rfl fun k _ => ?_
  have hk := contrEquiv1_symm_val dot_S2048x128_S128x64_S2048x64_1_0_0_1_n_n 128 rfl rfl k
  have el : dot_S2048x128_S128x64_S2048x64_1_0_0_1_n_n.lhsIdx (ix2 p q) ((contrEquiv1 dot_S2048x128_S128x64_S2048x64_1_0_0_1_n_n 128 rfl rfl).symm k) = ix2 p k := funext fun ax => Fin.ext (by
    match ax with
    | ⟨0, _⟩ => exact lhs_lin3_0 _ _
    | ⟨1, _⟩ => exact (lhs_lin3_1 _ _).trans hk)
  have er : dot_S2048x128_S128x64_S2048x64_1_0_0_1_n_n.rhsIdx (ix2 p q) ((contrEquiv1 dot_S2048x128_S128x64_S2048x64_1_0_0_1_n_n 128 rfl rfl).symm k) = ix2 k q := funext fun ax => Fin.ext (by
    match ax with
    | ⟨0, _⟩ => exact (rhs_lin3_0 _ _).trans hk
    | ⟨1, _⟩ => exact rhs_lin3_1 _ _)
  rw [el, er]

theorem pay3_apply (x0 : Vec Ideal S2048x128 .f32) (x1 : Vec Ideal S64x128 .f32) (x2 : Vec Ideal S1x64 .f32) (p : Fin 2048) (q : Fin 64) :
    k3_pay1 x0 x1 x2 (ix2 p q) = (∑ k : Fin 128, x0 (ix2 p k) * x1 (ix2 q k)) + x2 (ix2 0 q) := by
  have hb : (broadcastTo S2048x64 (shapeCast S1x64 x2 shapeCasts_S1x64_S1x64) broadcasts_S1x64_S2048x64 : FVec Ideal S2048x64 .f32) (ix2 p q) = x2 (ix2 0 q) := by
    rw [shapeCast_self]
    exact broadcastTo_apply x2 _ (ix2 p q) (ix2 0 q) (fun a => by match a with | ⟨0, _⟩ => rfl | ⟨1, _⟩ => rfl)
  have ht : ∀ k : Fin 128, (transpose S128x64 [1, 0] (truncf .bf16 x1 bitsLt_bf16_f32 : FVec Ideal S64x128 .bf16) transposes_S64x128_p1_0_S128x64 : FVec Ideal S128x64 .bf16) (ix2 k q) = x1 (ix2 q k) := fun k =>
    transpose_apply [1, 0] _ _ (ix2 k q) (ix2 q k) (fun b => by match b with | ⟨0, _⟩ => rfl | ⟨1, _⟩ => rfl)
  unfold k3_pay1
  refine (congrArg₂ (· + ·) (mm3_apply _ _ p q) hb).trans ?_
  refine congrArg (· + x2 (ix2 0 q)) (Finset.sum_congr rfl fun k _ => ?_)
  exact congrArg₂ (· * ·) (congrFun (shapeCast_self x0 shapeCasts_S2048x128_S2048x128) (ix2 p k)) (ht k)

section Array
variable (V : (c : Dev nD) → (b : Ref sig .tc) → Buf (Elt Ideal) ((c : Thread nD τ).loc b))

abbrev xarr3 (c : Dev nD) : FVec Ideal S8192x128 .f32 := V c (Pipeline.arrRef spec3 0)
abbrev warr3 (c : Dev nD) : FVec Ideal S64x128 .f32 := V c (Pipeline.arrRef spec3 1)
abbrev barr3 (c : Dev nD) : FVec Ideal S1x64 .f32 := V c (Pipeline.arrRef spec3 2)

def G3 (c : Dev nD) : S8192x64.Idx → EReal := fun i =>
  Cert.Spec.lin (fun r k => xarr3 V c (ix2 r k)) (fun o k => warr3 V c (ix2 o k)) (fun o => barr3 V c (ix2 0 o)) (i 0) (i 1)

theorem hz3 : (![0, 0] : Fin 2 → Nat) = fun _ => 0 := funext fun a => by fin_cases a <;> rfl

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem xblk3_apply (c : Dev nD) (t : Fin cfg3.N) (y : S2048x128.Idx) (k : S8192x128.Idx)
    (hk0 : (k 0).val = t.val * 2048 + (y 0).val) (hk1 : (k 1).val = (y 1).val) :
    (iblk3 V c 0 t : Vec Ideal S2048x128 .f32) y = xarr3 V c k := by
  obtain ⟨e0, e1, -⟩ := idx_facts3 t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 2048 + 1 * (y 0).val = (k 0).val; omega
  | ⟨1, _⟩ => show win3_0.index t (1 : Fin 2) * 128 + 1 * (y 1).val = (k 1).val; omega

theorem wblk3_apply (c : Dev nD) (t : Fin cfg3.N) (y : S64x128.Idx) :
    (iblk3 V c 1 t : Vec Ideal S64x128 .f32) y = warr3 V c y := by
  obtain ⟨-, -, e0, e1, -⟩ := idx_facts3 t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 64 + 1 * (y 0).val = (y 0).val; omega
  | ⟨1, _⟩ => show win3_1.index t (1 : Fin 2) * 128 + 1 * (y 1).val = (y 1).val; omega

theorem bblk3_apply (c : Dev nD) (t : Fin cfg3.N) (y : S1x64.Idx) :
    (iblk3 V c 2 t : Vec Ideal S1x64 .f32) y = barr3 V c y := by
  obtain ⟨-, -, -, -, e0, e1, -⟩ := idx_facts3 t
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 1 + 1 * (y 0).val = (y 0).val; omega
  | ⟨1, _⟩ => show win3_2.index t (1 : Fin 2) * 64 + 1 * (y 1).val = (y 1).val; omega

theorem flushed3_eq (c : Dev nD) (t : Fin cfg3.N) :
    (dat3 V c).flushed 3 t = ((cfg3.win 3).blk t).view.read (Elt Ideal) (G3 V c) := by
  show (cfg3.win 3).cut (grid3.coords t) ((dat3 V c).after 3 t) = _
  rw [after3_3]
  unfold out3_3
  rw [View.canon_unit_zero hz3]
  simp only [View.ld_unit_zero (S := S2048x128) hz3, View.ld_unit_zero (S := S64x128) hz3, View.ld_unit_zero (S := S1x64) hz3]
  obtain ⟨-, -, -, -, -, -, e0, e1⟩ := idx_facts3 t
  funext j
  obtain ⟨p, q, rfl⟩ : ∃ (p : Fin 2048) (q : Fin 64), j = ix2 p q := ⟨j 0, j 1, eq_ix2 j⟩
  show k3_pay1 (iblk3 V c 0 t) (iblk3 V c 1 t) (iblk3 V c 2 t) (ix2 p q) = G3 V c (((cfg3.win 3).blk t).view.emb (ix2 p q))
  refine (pay3_apply (iblk3 V c 0 t) (iblk3 V c 1 t) (iblk3 V c 2 t) p q).trans ?_
  have hr : ((((cfg3.win 3).blk t).view.emb (ix2 p q)) 0).val = t.val * 2048 + p.val := by
    show win3_3.index t (0 : Fin 2) * 2048 + 1 * p.val = _; omega
  have hq : (((cfg3.win 3).blk t).view.emb (ix2 p q)) 1 = q := Fin.ext (by
    show win3_3.index t (1 : Fin 2) * 64 + 1 * q.val = _; omega)
  unfold G3 Cert.Spec.lin
  rw [hq]
  refine congrArg₂ (· + ·) (Finset.sum_congr rfl fun k _ => ?_) (bblk3_apply V c t (ix2 0 q))
  exact congrArg₂ (· * ·) (xblk3_apply V c t (ix2 p k) (ix2 ((((cfg3.win 3).blk t).view.emb (ix2 p q)) 0) k) hr rfl) (wblk3_apply V c t (ix2 q k))

theorem mem_blk3 (t : Fin cfg3.N) (i : S8192x64.Idx) :
    i ∈ ((cfg3.win 3).blk t).view.set ↔ ∀ a : Fin 2, win3_3.index t a * S2048x64.size a ≤ (i a).val ∧ (i a).val < win3_3.index t a * S2048x64.size a + S2048x64.size a := by
  show i ∈ ((View.whole main_v6).slice (win3_3.rect t)).set ↔ _
  rw [View.set_slice_whole, Rect.mem_set_unit]
  exact Iff.rfl

theorem cover3 (i : S8192x64.Idx) : ∃ t : Fin cfg3.N, (cfg3.win 3).flush t = true ∧ i ∈ ((cfg3.win 3).blk t).view.set := by
  have hi0 : (i 0).val < 8192 := (i 0).isLt
  have hi1 : (i 1).val < 64 := (i 1).isLt
  have hN : cfg3.N = 4 := N_3
  obtain ⟨t, ht⟩ : ∃ t : Fin cfg3.N, t.val = (i 0).val / 2048 := ⟨⟨(i 0).val / 2048, by rw [hN]; omega⟩, rfl⟩
  obtain ⟨-, -, -, -, -, -, e0, e1⟩ := idx_facts3 t
  refine ⟨t, flush3_3 t, ?_⟩
  rw [mem_blk3]
  intro a
  match a with
  | ⟨0, _⟩ => show win3_3.index t (0 : Fin 2) * 2048 ≤ (i 0).val ∧ (i 0).val < win3_3.index t (0 : Fin 2) * 2048 + 2048; omega
  | ⟨1, _⟩ => show win3_3.index t (1 : Fin 2) * 64 ≤ (i 1).val ∧ (i 1).val < win3_3.index t (1 : Fin 2) * 64 + 64; omega

theorem final3_arr (c : Dev nD) : (dat3 V c).arrAt 3 cfg3.N = G3 V c :=
  (dat3 V c).arrAt_eq_of_cover 3 (G3 V c) (fun t _ => flushed3_eq V c t) (cover3)

theorem final3 (c : Dev nD) (r : Fin 8192) (q : Fin 64) :
    ((dat3 (F := Ideal) V c).arrAt 3 cfg3.N : S8192x64.Idx → EReal) (ix2 r q)
      = Cert.Spec.lin (fun r k => xarr3 V c (ix2 r k)) (fun o k => warr3 V c (ix2 o k)) (fun o => barr3 V c (ix2 0 o)) r q := by
  rw [final3_arr]
  rfl

end Array

end Cert.KernelIdeal.HandValue

end
-- ==== Proof.LibBlockSum.lean ====
import Mathlib.Algebra.BigOperators.Fin
import Mathlib.Data.Fintype.BigOperators

open scoped BigOperators

namespace Cert.LibBlockSum

variable {M : Type*} [AddCommMonoid M]

theorem block_lt {a b j q : ℕ} (hj : j < a) (hq : q < b) : b * j + q < a * b :=
  calc b * j + q < b * j + b := Nat.add_lt_add_left hq _
    _ = b * (j + 1) := (Nat.mul_succ b j).symm
    _ ≤ b * a := Nat.mul_le_mul_left b hj
    _ = a * b := Nat.mul_comm b a

theorem sum_range_block_succ (b j : ℕ) (f : ℕ → M) :
    ∑ k ∈ Finset.range (b * (j + 1)), f k
      = ∑ k ∈ Finset.range (b * j), f k + ∑ q ∈ Finset.range b, f (b * j + q) := by
  rw [Nat.mul_succ, Finset.sum_range_add]

theorem sum_range_mul (a b : ℕ) (f : ℕ → M) :
    ∑ k ∈ Finset.range (a * b), f k = ∑ j ∈ Finset.range a, ∑ q ∈ Finset.range b, f (b * j + q) := by
  induction a with
  | zero => simp
  | succ a ih =>
    rw [Finset.sum_range_succ, ← ih, Nat.mul_comm (a + 1) b, sum_range_block_succ, Nat.mul_comm b a]

theorem sum_fin_mul (a b : ℕ) (f : Fin (a * b) → M) :
    ∑ k : Fin (a * b), f k
      = ∑ j : Fin a, ∑ q : Fin b, f ⟨b * j.val + q.val, block_lt j.isLt q.isLt⟩ := by
  let g : ℕ → M := fun k => if h : k < a * b then f ⟨k, h⟩ else 0
  have hg : ∀ k : Fin (a * b), f k = g k.val := fun k => by simp only [g, dif_pos k.isLt, Fin.eta]
  calc ∑ k : Fin (a * b), f k = ∑ k : Fin (a * b), g k.val := Finset.sum_congr rfl fun k _ => hg k
    _ = ∑ k ∈ Finset.range (a * b), g k := Fin.sum_univ_eq_sum_range g (a * b)
    _ = ∑ j ∈ Finset.range a, ∑ q ∈ Finset.range b, g (b * j + q) := sum_range_mul a b g
    _ = ∑ j : Fin a, ∑ q ∈ Finset.range b, g (b * j.val + q) :=
        (Fin.sum_univ_eq_sum_range (fun j => ∑ q ∈ Finset.range b, g (b * j + q)) a).symm
    _ = ∑ j : Fin a, ∑ q : Fin b, g (b * j.val + q.val) :=
        Finset.sum_congr rfl fun j _ => (Fin.sum_univ_eq_sum_range (fun q => g (b * j.val + q)) b).symm
    _ = _ := Finset.sum_congr rfl fun j _ => Finset.sum_congr rfl fun q _ => by simp only [g, dif_pos (block_lt j.isLt q.isLt)]

theorem sum_fin_mul_eq_fold (a b : ℕ) (f : Fin (a * b) → M) (acc : ℕ → M) (h0 : acc 0 = 0)
    (hs : ∀ j (hj : j < a), acc (j + 1) = acc j + ∑ q : Fin b, f ⟨b * j + q.val, block_lt hj q.isLt⟩) :
    ∑ k : Fin (a * b), f k = acc a := by
  let B : ℕ → M := fun j => if hj : j < a then ∑ q : Fin b, f ⟨b * j + q.val, block_lt hj q.isLt⟩ else 0
  have hacc : ∀ n, n ≤ a → acc n = ∑ j ∈ Finset.range n, B j := by
    intro n
    induction n with
    | zero => intro _; rw [h0, Finset.range_zero, Finset.sum_empty]
    | succ n ih =>
      intro hn
      have hlt : n < a := hn
      rw [hs n hlt, ih (Nat.le_of_lt hlt), Finset.sum_range_succ]
      simp only [B, dif_pos hlt]
  rw [hacc a le_rfl, sum_fin_mul, ← Fin.sum_univ_eq_sum_range B a]
  exact Finset.sum_congr rfl fun j _ => by simp only [B, dif_pos j.isLt]

end Cert.LibBlockSum
-- ==== Proof.KI.Deg0Value.lean ====
import proofs.«417937_j15461882266039_1_alg».proof.Proof.KI.Deg0
import proofs.«417937_j15461882266039_1_alg».proof.Proof.Spec
import proofs.«417937_j15461882266039_1_alg».proof.Proof.LibBlockSum
import Idealize.ShloMosaic.PureOps.Ideal.Laws
import Idealize.ShloMosaic.Lib.ValueIdx
import Idealize.ShloMosaic.Lib.Pipeline.Value
import Idealize.ShloMosaic.Lib.Tactic

set_option maxRecDepth 16384

noncomputable section

open scoped BigOperators

namespace Cert.KernelIdeal.HandValue

open Idealize.ShloMosaic Idealize.ShloMosaic.TcCoe Idealize.ShloMosaic.Tactic Idealize.SL.Sem
open Idealize.ShloMosaic.ValueIdx
open Idealize.ShloMosaic.Pipeline (Dat)
open Cert.KernelIdeal Cert.KernelIdeal.Gen Cert.KernelIdeal.Hand

variable {F : FTy → Type} [FloatOps F]

theorem hz : (![0, 0] : Fin 2 → Nat) = fun _ => 0 := funext fun a => by fin_cases a <;> rfl

theorem sout_B (c : Dev nD) (i : grid0.Coords) (a2 : Memref sig .tc .vmem S1024x1024 .f32) (h2 : a2.IsWhole) (a3 : Memref sig .tc .vmem S1024x1 .f32) (h3 : a3.IsWhole) (a4 : Memref sig .tc .vmem S1024x1 .f32) (h4 : a4.IsWhole) (hc0 : ¬cond0_0 i) (hc1 : ¬cond0_1 i) (x : Vec F S1024x1024 .f32) (xs : Vec F S1024x1 .f32) :
    sout0_B_0 c i a2 h2 a3 h3 a4 h4 hc0 hc1 x xs = k0_pay2 i x xs := by
  unfold sout0_B_0
  rw [View.read_writes_eq_canon _ _ _ (scover0_B_0 c i a2 h2 a3 h3 a4 h4 hc0 hc1 x xs)]
  unfold kernelRun0_B
  dsimp only
  sl_unfold_words
  rw [View.canon_unit_zero hz]
  simp only [View.readAt_eq_ld, h2.read_unread, h4.read_unread, View.ld_unit_zero (S := S1024x1024) hz, View.ld_unit_zero (S := S1024x1) hz]

theorem sout_A (c : Dev nD) (i : grid0.Coords) (a2 : Memref sig .tc .vmem S1024x1024 .f32) (h2 : a2.IsWhole) (a3 : Memref sig .tc .vmem S1024x1 .f32) (h3 : a3.IsWhole) (a4 : Memref sig .tc .vmem S1024x1 .f32) (h4 : a4.IsWhole) (hc0 : cond0_0 i) (hc1 : ¬cond0_1 i) (x : Vec F S1024x1024 .f32) :
    sout0_A_0 c i a2 h2 a3 h3 a4 h4 hc0 hc1 x = k0_pay2 i x k0_pay1 := by
  unfold sout0_A_0
  rw [View.read_writes_eq_canon _ _ _ (scover0_A_0 c i a2 h2 a3 h3 a4 h4 hc0 hc1 x)]
  unfold kernelRun0_A
  dsimp only
  sl_unfold_words
  rw [View.canon_cons_unit_zero (S := S1024x1) hz, View.readCov_unit_zero (S := S1024x1) _ hz]
  simp only [View.readAt_eq_ld, h2.read_unread, View.ld_unit_zero (S := S1024x1024) hz, View.ld_unit_zero (S := S1024x1) hz]

theorem sout_C (c : Dev nD) (i : grid0.Coords) (a2 : Memref sig .tc .vmem S1024x1024 .f32) (h2 : a2.IsWhole) (a3 : Memref sig .tc .vmem S1024x1 .f32) (h3 : a3.IsWhole) (a4 : Memref sig .tc .vmem S1024x1 .f32) (h4 : a4.IsWhole) (hc0 : ¬cond0_0 i) (hc1 : cond0_1 i) (x : Vec F S1024x1024 .f32) (xs : Vec F S1024x1 .f32) :
    sout0_C_0 c i a2 h2 a3 h3 a4 h4 hc0 hc1 x xs = k0_pay2 i x xs := by
  unfold sout0_C_0
  rw [View.read_writes_eq_canon _ _ _ (scover0_C_0 c i a2 h2 a3 h3 a4 h4 hc0 hc1 x xs)]
  unfold kernelRun0_C
  dsimp only
  sl_unfold_words
  rw [View.canon_unit_zero hz]
  simp only [View.readAt_eq_ld, h2.read_unread, h4.read_unread, View.ld_unit_zero (S := S1024x1024) hz, View.ld_unit_zero (S := S1024x1) hz]

theorem out_C (c : Dev nD) (i : grid0.Coords) (a2 : Memref sig .tc .vmem S1024x1024 .f32) (h2 : a2.IsWhole) (a3 : Memref sig .tc .vmem S1024x1 .f32) (h3 : a3.IsWhole) (a4 : Memref sig .tc .vmem S1024x1 .f32) (h4 : a4.IsWhole) (hc0 : ¬cond0_0 i) (hc1 : cond0_1 i) (x : Vec F S1024x1024 .f32) (xs : Vec F S1024x1 .f32) :
    out0_C_1 c i a2 h2 a3 h3 a4 h4 hc0 hc1 x xs = k0_pay3 (k0_pay2 i x xs) := by
  unfold out0_C_1
  rw [View.read_writes_eq_canon _ _ _ (cover0_C_1 c i a2 h2 a3 h3 a4 h4 hc0 hc1 x xs)]
  unfold kernelRun0_C
  dsimp only
  sl_unfold_words
  rw [View.canon_unit_zero hz]
  simp only [View.readAt_eq_ld, h2.read_unread, h4.read_unread, View.ld_unit_zero (S := S1024x1024) hz, View.ld_unit_zero (S := S1024x1) hz, View.readCov_unit_zero (S := S1024x1) _ hz]

theorem diag_word (i0 i1 p q : ℕ) (h0 : i0 < 8) (h1 : i1 < 8) (hp : p < 1024) (hq : q < 1024) :
    IntOp.cmpi .eq (IntOp.addi (Scalar.muli (BitVec.ofNat 32 i0) 1024#32) (BitVec.ofNat 32 p))
        (IntOp.addi (Scalar.muli (BitVec.ofNat 32 i1) 1024#32) (BitVec.ofNat 32 q)) = 1#1
      ↔ 1024 * i0 + p = 1024 * i1 + q := by
  have key : (IntOp.addi (Scalar.muli (BitVec.ofNat 32 i0) 1024#32) (BitVec.ofNat 32 p)
        = IntOp.addi (Scalar.muli (BitVec.ofNat 32 i1) 1024#32) (BitVec.ofNat 32 q)) ↔ 1024 * i0 + p = 1024 * i1 + q := by
    unfold IntOp.addi Scalar.muli IntOp.muli
    rw [← BitVec.toNat_inj]
    simp only [BitVec.toNat_add, BitVec.toNat_mul, BitVec.toNat_ofNat]
    omega
  show BitVec.ofBool (IntOp.addi (Scalar.muli (BitVec.ofNat 32 i0) 1024#32) (BitVec.ofNat 32 p)
        == IntOp.addi (Scalar.muli (BitVec.ofNat 32 i1) 1024#32) (BitVec.ofNat 32 q)) = 1#1 ↔ _
  by_cases h : IntOp.addi (Scalar.muli (BitVec.ofNat 32 i0) 1024#32) (BitVec.ofNat 32 p)
        = IntOp.addi (Scalar.muli (BitVec.ofNat 32 i1) 1024#32) (BitVec.ofNat 32 q)
  · rw [show (IntOp.addi (Scalar.muli (BitVec.ofNat 32 i0) 1024#32) (BitVec.ofNat 32 p)
        == IntOp.addi (Scalar.muli (BitVec.ofNat 32 i1) 1024#32) (BitVec.ofNat 32 q)) = true from beq_iff_eq.mpr h]
    exact ⟨fun _ => key.mp h, fun _ => rfl⟩
  · rw [show (IntOp.addi (Scalar.muli (BitVec.ofNat 32 i0) 1024#32) (BitVec.ofNat 32 p)
        == IntOp.addi (Scalar.muli (BitVec.ofNat 32 i1) 1024#32) (BitVec.ofNat 32 q)) = false from beq_false_of_ne h]
    exact ⟨fun e => absurd e (by decide), fun e => absurd (key.mpr e) h⟩

theorem bit_real (b : BitVec 1) : (((b.setWidth 32).toInt : ℝ) : EReal) = (((b.toNat : ℝ)) : EReal) := by
  rcases BitVec.eq_zero_or_eq_one b with rfl | rfl <;> norm_num

theorem rowWord (w : BitVec 32) (p q : Fin 1024) :
    broadcastTo S1024x1024 (addi (broadcast S1024x1 w) (iota .tc S1024x1 32 [0] iota_S1024x1_d0_w32)) broadcasts_S1024x1_S1024x1024 (ix2 p q)
      = IntOp.addi w (BitVec.ofNat 32 p.val) := by
  refine (broadcastTo_apply _ _ (ix2 p q) (ix2 p (0 : Fin 1)) ?_).trans ?_
  · intro a; match a with
    | ⟨0, _⟩ => rfl
    | ⟨1, _⟩ => rfl
  · exact congrArg (IntOp.addi w) (iota_single_apply _ _ _ _ _ _)

theorem colWord (w : BitVec 32) (p q : Fin 1024) :
    broadcastTo S1024x1024 (addi (broadcast S1x1024 w) (iota .tc S1x1024 32 [1] iota_S1x1024_d1_w32)) broadcasts_S1x1024_S1024x1024 (ix2 p q)
      = IntOp.addi w (BitVec.ofNat 32 q.val) := by
  refine (broadcastTo_apply _ _ (ix2 p q) (ix2 (0 : Fin 1) q) ?_).trans ?_
  · intro a; match a with
    | ⟨0, _⟩ => rfl
    | ⟨1, _⟩ => rfl
  · exact congrArg (IntOp.addi w) (iota_single_apply _ _ _ _ _ _)

theorem select_congr {α : Type} {b b' : BitVec 1} (h : b = b') (u v : α) : Scalar.select b u v = Scalar.select b' u v := by rw [h]

def maskE (i : grid0.Coords) (x : Vec Ideal S1024x1024 .f32) (p q : Fin 1024) : EReal :=
  if 1024 * (i 0).val + p.val = 1024 * (i 1).val + q.val then Cert.Spec.oneW else Cert.Spec.bin (x (ix2 p q))

theorem zeroPay_apply (j : S1024x1.Idx) : k0_pay1 (F := Ideal) j = 0 := by
  unfold k0_pay1
  refine (congrFun (shapeCast_self _ _) j).trans ?_
  exact Ideal.ofBits_zero_f32

theorem accPay_apply (i : grid0.Coords) (x : Vec Ideal S1024x1024 .f32) (acc : Vec Ideal S1024x1 .f32) (p : Fin 1024) :
    k0_pay2 (F := Ideal) i x acc (ix2 p (0 : Fin 1)) = acc (ix2 p (0 : Fin 1)) + ∑ q : Fin 1024, maskE i x p q := by
  unfold k0_pay2
  refine (congrFun (shapeCast_self _ _) (ix2 p (0 : Fin 1))).trans ?_
  refine congrArg (acc (ix2 p (0 : Fin 1)) + ·) ?_
  refine (shapeCast_apply _ _ (ix2 p (0 : Fin 1)) (ix1 p) ?_).trans ?_
  · rw [Shape.rowMajor_val_one, Shape.rowMajor_val_two]; show p.val = p.val * 1 + 0; omega
  refine (Ideal.multiReduction_add_single _ _ _ _ _ (ix1 p)).trans ?_
  refine Finset.sum_congr rfl fun q _ => ?_
  have hl : reduces_S1024x1024_S1024.lift (ix1 p) q = ix2 p q := Shape.idx_ext₂ rfl rfl
  refine (congrArg _ hl).trans ?_
  have hR := rowWord (Scalar.muli (BitVec.ofNat 32 (i 0).val) 1024#32) p q
  have hC := colWord (Scalar.muli (BitVec.ofNat 32 (i 1).val) 1024#32) p q
  have hcond := congrArg₂ (IntOp.cmpi CmpIPredicate.eq) hR hC
  have hw := diag_word (i 0).val (i 1).val p.val q.val (i 0).isLt (i 1).isLt p.isLt q.isLt
  unfold maskE
  refine (select_apply _ _ _ (ix2 p q)).trans ?_
  by_cases hd : 1024 * (i 0).val + p.val = 1024 * (i 1).val + q.val
  · rw [if_pos hd]
    have h1 := hcond.trans (hw.mpr hd)
    exact (select_congr h1 _ _).trans (select_one _ _)
  · rw [if_neg hd]
    have h0 := hcond.trans (eq_zero_of_ne_one (fun e => hd (hw.mp e)))
    refine (select_congr h0 _ _).trans ((select_zero _ _).trans ?_)
    exact bit_real (Ideal.cmp .ogt (x (ix2 p q)) Cert.Spec.thr)

theorem rsqrtPay_apply (acc : Vec Ideal S1024x1 .f32) (j : S1024x1.Idx) : k0_pay3 (F := Ideal) acc j = Ideal.rsqrt (acc j) := rfl

section AtEntry
variable (V : (c : Dev nD) → (b : Ref sig .tc) → Buf (Elt Ideal) ((c : Thread nD τ).loc b))

abbrev adj0 (c : Dev nD) : FVec Ideal S8192x8192 .f32 := V c (Pipeline.arrRef spec0 0)

abbrev adjBlk (c : Dev nD) (t : Fin cfg0.N) : Vec Ideal S1024x1024 .f32 := iblk0 V c 0 t

theorem grid_facts : ∀ t : Fin cfg0.N, ((grid0.coords t) 0).val = t.val / 8 ∧ ((grid0.coords t) 1).val = t.val % 8
    ∧ win0_0.index t (0 : Fin 2) = t.val / 8 ∧ win0_0.index t (1 : Fin 2) = t.val % 8
    ∧ win0_1.index t (0 : Fin 2) = t.val / 8 ∧ win0_1.index t (1 : Fin 2) = 0 :=
  (by decide +kernel : ∀ t : Fin grid0.N, _)

theorem adjBlk_apply (c : Dev nD) (t : Fin cfg0.N) (p q : Fin 1024) (r k : Fin 8192)
    (hr : r.val = 1024 * (t.val / 8) + p.val) (hk : k.val = 1024 * (t.val % 8) + q.val) :
    adjBlk V c t (ix2 p q) = adj0 V c (ix2 r k) := by
  obtain ⟨e0, e1, e2, e3, e4, e5⟩ := grid_facts t
  show V c (Pipeline.arrRef spec0 0) (((cfg0.win 0).blk t).view.emb (ix2 p q)) = V c (Pipeline.arrRef spec0 0) (ix2 r k)
  refine congrArg _ (funext fun a => Fin.ext ?_)
  match a with
  | ⟨0, _⟩ => show win0_0.index t (0 : Fin 2) * 1024 + 1 * p.val = r.val; omega
  | ⟨1, _⟩ => show win0_0.index t (1 : Fin 2) * 1024 + 1 * q.val = k.val; omega

def maskN (adj : FVec Ideal S8192x8192 .f32) (r : Fin 8192) (k : ℕ) : EReal :=
  if h : k < 8192 then Cert.Spec.mask adj r ⟨k, h⟩ else 0

theorem blockSum_eq (c : Dev nD) (t : Fin cfg0.N) (p : Fin 1024) (r : Fin 8192) (hr : r.val = 1024 * (t.val / 8) + p.val) :
    ∑ q : Fin 1024, maskE (grid0.coords t) (adjBlk V c t) p q
      = ∑ q ∈ Finset.range 1024, maskN (adj0 V c) r (1024 * (t.val % 8) + q) := by
  rw [← Fin.sum_univ_eq_sum_range (fun q => maskN (adj0 V c) r (1024 * (t.val % 8) + q)) 1024]
  refine Finset.sum_congr rfl fun q _ => ?_
  have hN : t.val < 64 := lt_of_lt_of_eq t.isLt (show cfg0.N = 64 from N_0)
  have hk : 1024 * (t.val % 8) + q.val < 8192 := by have := q.isLt; omega
  obtain ⟨e0, e1, -⟩ := grid_facts t
  unfold maskE maskN
  rw [dif_pos hk]
  unfold Cert.Spec.mask
  rw [adjBlk_apply V c t p q r ⟨1024 * (t.val % 8) + q.val, hk⟩ hr rfl, e0, e1]
  exact if_congr (by rw [Fin.ext_iff]; show _ ↔ r.val = 1024 * (t.val % 8) + q.val; omega) rfl rfl

theorem range_step (adj : FVec Ideal S8192x8192 .f32) (r : Fin 8192) (j : ℕ) (S : EReal)
    (hS : S = ∑ k ∈ Finset.range (1024 * j), maskN adj r k) :
    S + ∑ q ∈ Finset.range 1024, maskN adj r (1024 * j + q) = ∑ k ∈ Finset.range (1024 * (j + 1)), maskN adj r k := by
  rw [hS, ← Cert.LibBlockSum.sum_range_block_succ]

theorem acc_eq (c : Dev nD) : ∀ (n : ℕ) (hn : n < cfg0.N) (p : Fin 1024) (r : Fin 8192), r.val = 1024 * (n / 8) + p.val →
    (outsAt0 V c n hn).2 (ix2 p (0 : Fin 1)) = ∑ k ∈ Finset.range (1024 * (n % 8 + 1)), maskN (adj0 V c) r k := by
  intro n
  induction n with
  | zero =>
    intro hn p r hr
    have h0 : (⟨0, hn⟩ : Fin cfg0.N).val % 8 = 0 := rfl
    have h1 : ¬(⟨0, hn⟩ : Fin cfg0.N).val % 8 = 7 := by show ¬(0 : ℕ) % 8 = 7; decide
    rw [outsAt0_A V c ⟨0, hn⟩ h0 h1]; dsimp only
    refine (congrFun (sout_A (F := Ideal) c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr h0) (fun h => h1 ((hcond0_1 ⟨0, hn⟩).mp h)) (iblk0 V c 0 ⟨0, hn⟩)) (ix2 p (0 : Fin 1))).trans ?_
    refine (accPay_apply (grid0.coords ⟨0, hn⟩) (adjBlk V c ⟨0, hn⟩) (k0_pay1 (F := Ideal)) p).trans ?_
    rw [blockSum_eq V c ⟨0, hn⟩ p r hr]
    exact range_step (adj0 V c) r 0 _ (by rw [zeroPay_apply]; simp)
  | succ n ih =>
    intro hn p r hr
    have hN : n + 1 < 64 := lt_of_lt_of_eq hn (show cfg0.N = 64 from N_0)
    by_cases h0 : (n + 1) % 8 = 0
    · have h1 : ¬(n + 1) % 8 = 7 := by omega
      rw [outsAt0_A V c ⟨n + 1, hn⟩ h0 h1]; dsimp only
      refine (congrFun (sout_A (F := Ideal) c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩)) (ix2 p (0 : Fin 1))).trans ?_
      refine (accPay_apply (grid0.coords ⟨n + 1, hn⟩) (adjBlk V c ⟨n + 1, hn⟩) (k0_pay1 (F := Ideal)) p).trans ?_
      rw [blockSum_eq V c ⟨n + 1, hn⟩ p r hr]
      show _ + ∑ q ∈ Finset.range 1024, maskN (adj0 V c) r (1024 * ((n + 1) % 8) + q) = _
      rw [h0]
      exact range_step (adj0 V c) r 0 _ (by rw [zeroPay_apply]; simp)
    · have ihn := ih (Nat.lt_of_succ_lt hn) p r (by omega)
      have hj : n % 8 + 1 = (n + 1) % 8 := by omega
      by_cases h1 : (n + 1) % 8 = 7
      · rw [outsAt0_C V c ⟨n + 1, hn⟩ h0 h1]; dsimp only
        refine (congrFun (sout_C (F := Ideal) c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 V c n (Nat.lt_of_succ_lt hn)).2) (ix2 p (0 : Fin 1))).trans ?_
        refine (accPay_apply (grid0.coords ⟨n + 1, hn⟩) (adjBlk V c ⟨n + 1, hn⟩) (outsAt0 V c n (Nat.lt_of_succ_lt hn)).2 p).trans ?_
        rw [blockSum_eq V c ⟨n + 1, hn⟩ p r hr]
        exact range_step (adj0 V c) r ((n + 1) % 8) _ (by rw [ihn, hj])
      · rw [outsAt0_B V c ⟨n + 1, hn⟩ h0 h1]; dsimp only
        refine (congrFun (sout_B (F := Ideal) c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 V c n (Nat.lt_of_succ_lt hn)).2) (ix2 p (0 : Fin 1))).trans ?_
        refine (accPay_apply (grid0.coords ⟨n + 1, hn⟩) (adjBlk V c ⟨n + 1, hn⟩) (outsAt0 V c n (Nat.lt_of_succ_lt hn)).2 p).trans ?_
        rw [blockSum_eq V c ⟨n + 1, hn⟩ p r hr]
        exact range_step (adj0 V c) r ((n + 1) % 8) _ (by rw [ihn, hj])

end AtEntry

section Final
variable (V : (c : Dev nD) → (b : Ref sig .tc) → Buf (Elt Ideal) ((c : Thread nD τ).loc b))

theorem maskN_sum (adj : FVec Ideal S8192x8192 .f32) (r : Fin 8192) :
    ∑ k ∈ Finset.range 8192, maskN adj r k = ∑ k : Fin 8192, Cert.Spec.mask adj r k := by
  rw [← Fin.sum_univ_eq_sum_range (fun k => maskN adj r k) 8192]
  exact Finset.sum_congr rfl fun k _ => by unfold maskN; rw [dif_pos k.isLt]

theorem deg_at (c : Dev nD) (t : Fin cfg0.N) (h7 : t.val % 8 = 7) (p : Fin 1024) (r : Fin 8192)
    (hr : r.val = 1024 * (t.val / 8) + p.val) :
    (outsAt0 V c t.val t.isLt).1 (ix2 p (0 : Fin 1)) = Cert.Spec.deg (adj0 V c) r := by
  have h0 : ¬t.val % 8 = 0 := by omega
  have hacc := acc_eq V c t.val t.isLt p r hr
  rw [outsAt0_C V c t h0 h7] at hacc ⊢; dsimp only at hacc ⊢
  rw [sout_C (F := Ideal) c (grid0.coords t) (ms0_0 t) (hs0_0 t) (ms0_1 t) (hs0_1 t) scM0_0 (Memref.isWhole_whole _) (fun h => h0 ((hcond0_0 t).mp h)) ((hcond0_1 t).mpr h7) (iblk0 V c 0 t) (outsAt0 V c (t.val - 1) (Nat.lt_of_le_of_lt (Nat.sub_le _ _) t.isLt)).2] at hacc
  refine (congrFun (out_C (F := Ideal) c (grid0.coords t) (ms0_0 t) (hs0_0 t) (ms0_1 t) (hs0_1 t) scM0_0 (Memref.isWhole_whole _) (fun h => h0 ((hcond0_0 t).mp h)) ((hcond0_1 t).mpr h7) (iblk0 V c 0 t) (outsAt0 V c (t.val - 1) (Nat.lt_of_le_of_lt (Nat.sub_le _ _) t.isLt)).2) (ix2 p (0 : Fin 1))).trans ?_
  refine (rsqrtPay_apply _ (ix2 p (0 : Fin 1))).trans ?_
  unfold Cert.Spec.deg
  refine congrArg Ideal.rsqrt ?_
  rw [hacc, h7, ← maskN_sum]

def degArr (c : Dev nD) : FVec Ideal S8192x1 .f32 := fun y => Cert.Spec.deg (adj0 V c) ⟨(y 0).val, idx2_lt0 y⟩

theorem flushed_eq (c : Dev nD) (t : Fin cfg0.N) (hf : (cfg0.win 1).flush t = true) :
    (dat0 V c).flushed 1 t = ((cfg0.win 1).blk t).view.read (Elt Ideal) (degArr V c) := by
  have h7 : t.val % 8 = 7 := (flush0_1 t).mp hf
  have hN : t.val < 64 := lt_of_lt_of_eq t.isLt (show cfg0.N = 64 from N_0)
  obtain ⟨e0, e1, e2, e3, e4, e5⟩ := grid_facts t
  show (cfg0.win 1).cut (grid0.coords t) ((dat0 V c).after 1 t) = _
  rw [after0_1]
  funext y
  have hy0 : (y 0).val < 1024 := (y 0).isLt
  have hy1 : (y 1).val = 0 := Nat.lt_one_iff.mp (y 1).isLt
  have hy : (y : S1024x1.Idx) = ix2 (⟨(y 0).val, hy0⟩ : Fin 1024) (0 : Fin 1) := Shape.idx_ext₂ rfl hy1
  show (outsAt0 V c t.val t.isLt).1 y = degArr V c (((cfg0.win 1).blk t).view.emb y)
  refine (congrArg (outsAt0 V c t.val t.isLt).1 hy).trans ?_
  refine (deg_at V c t h7 ⟨(y 0).val, hy0⟩ ⟨1024 * (t.val / 8) + (y 0).val, by omega⟩ rfl).trans ?_
  unfold degArr
  refine congrArg (Cert.Spec.deg (adj0 V c)) (Fin.ext ?_)
  show 1024 * (t.val / 8) + (y 0).val = win0_1.index t (0 : Fin 2) * 1024 + 1 * (y 0).val
  omega

theorem mem_blk (t : Fin cfg0.N) (i : S8192x1.Idx) :
    i ∈ ((cfg0.win 1).blk t).view.set ↔ ∀ a : Fin 2, win0_1.index t a * S1024x1.size a ≤ (i a).val ∧ (i a).val < win0_1.index t a * S1024x1.size a + S1024x1.size a := by
  show i ∈ ((View.whole main_v0).slice (win0_1.rect t)).set ↔ _
  rw [View.set_slice_whole, Rect.mem_set_unit]
  exact Iff.rfl

theorem cover (i : S8192x1.Idx) : ∃ t : Fin cfg0.N, (cfg0.win 1).flush t = true ∧ i ∈ ((cfg0.win 1).blk t).view.set := by
  have hi0 : (i 0).val < 8192 := (i 0).isLt
  have hi1 : (i 1).val < 1 := (i 1).isLt
  have hN : cfg0.N = 64 := N_0
  refine ⟨⟨8 * ((i 0).val / 1024) + 7, by omega⟩, (flush0_1 _).mpr (by show (8 * ((i 0).val / 1024) + 7) % 8 = 7; omega), ?_⟩
  obtain ⟨e0, e1, e2, e3, e4, e5⟩ := grid_facts ⟨8 * ((i 0).val / 1024) + 7, by omega⟩
  rw [mem_blk]
  intro a
  match a with
  | ⟨0, _⟩ =>
    show win0_1.index _ (0 : Fin 2) * 1024 ≤ (i 0).val ∧ (i 0).val < win0_1.index _ (0 : Fin 2) * 1024 + 1024
    rw [e4]; show (8 * ((i 0).val / 1024) + 7) / 8 * 1024 ≤ (i 0).val ∧ (i 0).val < (8 * ((i 0).val / 1024) + 7) / 8 * 1024 + 1024; omega
  | ⟨1, _⟩ =>
    show win0_1.index _ (1 : Fin 2) * 1 ≤ (i 1).val ∧ (i 1).val < win0_1.index _ (1 : Fin 2) * 1 + 1
    rw [e5]; omega

theorem final0_arr (c : Dev nD) : (dat0 (F := Ideal) V c).arrAt 1 cfg0.N = degArr V c :=
  (dat0 V c).arrAt_eq_of_cover 1 (degArr V c) (flushed_eq V c) (cover)

-- each output entry is the reciprocal square root of its row's mask sum
theorem final0 (c : Dev nD) (r : Fin 8192) :
    ((dat0 (F := Ideal) V c).arrAt 1 cfg0.N : S8192x1.Idx → EReal) (ix2 r (0 : Fin 1)) = Cert.Spec.deg (adj0 V c) r := by
  rw [final0_arr V c]; rfl

end Final

end Cert.KernelIdeal.HandValue

end
-- ==== Proof.KI.Prop2Value.lean ====
import proofs.«417937_j15461882266039_1_alg».proof.Proof.KI.Prop2
import proofs.«417937_j15461882266039_1_alg».proof.Proof.Spec
import Idealize.ShloMosaic.Lib.Pipeline.Value
import Idealize.ShloMosaic.Lib.ValueIdx
import Idealize.ShloMosaic.Lib.KernelVsHost
import Idealize.ShloMosaic.PureOps.Ideal.Laws
import proofs.«417937_j15461882266039_1_alg».proof.Proof.LibBlockSum
import Idealize.ShloMosaic.Lib.Tactic
set_option maxRecDepth 16384
noncomputable section

namespace Cert.KernelIdeal.HandValue

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.Hand
open scoped BigOperators

section Pieces
variable {F : FTy → Type} [FloatOps F]

theorem hz2 : (![0, 0] : Fin 2 → Nat) = fun _ => 0 := funext fun a => by fin_cases a <;> rfl

section
variable (c : Dev nD) (i : grid2.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1024x128 .f32) (harg7 : arg7.IsWhole)

theorem sA2 (hc0 : cond2_0 i) (hc1 : ¬cond2_1 i)
    (x0 : Vec F S1024x1024 .f32) (x1 : Vec F S1024x128 .f32) (x2 : Vec F S1024x1 .f32) (x3 : Vec F S1x1024 .f32) :
    sout2_A_0 c i arg2 harg2 arg3 harg3 arg4 harg4 arg5 harg5 arg6 harg6 arg7 harg7 hc0 hc1 x0 x1 x2 x3 = k2_pay1 (k2_pay4 i x0 x2 x3 x1 (k2_pay3 (F := F))) := by
  unfold sout2_A_0
  rw [View.read_writes_eq_canon _ _ _ (scover2_A_0 c i arg2 harg2 arg3 harg3 arg4 harg4 arg5 harg5 arg6 harg6 arg7 harg7 hc0 hc1 x0 x1 x2 x3)]
  unfold kernelRun2_A
  dsimp only
  sl_unfold_words
  rw [View.canon_cons_unit_zero (S := S1024x128) hz2, View.readCov_unit_zero (S := S1024x128) _ hz2]
  simp only [View.readAt_eq_ld, harg2.read_unread, harg3.read_unread, harg4.read_unread, harg5.read_unread, harg6.read_unread, harg7.read_unread, View.ld_unit_zero (S := S1024x1024) hz2, View.ld_unit_zero (S := S1024x128) hz2, View.ld_unit_zero (S := S1024x1) hz2, View.ld_unit_zero (S := S1x1024) hz2, View.readCov_unit_zero (S := S1024x128) _ hz2]

theorem sB2 (hc0 : ¬cond2_0 i) (hc1 : ¬cond2_1 i)
    (x0 : Vec F S1024x1024 .f32) (x1 : Vec F S1024x128 .f32) (x2 : Vec F S1024x1 .f32) (x3 : Vec F S1x1024 .f32) (xs0 : Vec F S1024x128 .f32) :
    sout2_B_0 c i arg2 harg2 arg3 harg3 arg4 harg4 arg5 harg5 arg6 harg6 arg7 harg7 hc0 hc1 x0 x1 x2 x3 xs0 = k2_pay1 (k2_pay4 i x0 x2 x3 x1 xs0) := by
  unfold sout2_B_0
  rw [View.read_writes_eq_canon _ _ _ (scover2_B_0 c i arg2 harg2 arg3 harg3 arg4 harg4 arg5 harg5 arg6 harg6 arg7 harg7 hc0 hc1 x0 x1 x2 x3 xs0)]
  unfold kernelRun2_B
  dsimp only
  sl_unfold_words
  rw [View.canon_unit_zero hz2]
  simp only [View.readAt_eq_ld, harg2.read_unread, harg3.read_unread, harg4.read_unread, harg5.read_unread, harg6.read_unread, harg7.read_unread, View.ld_unit_zero (S := S1024x1024) hz2, View.ld_unit_zero (S := S1024x128) hz2, View.ld_unit_zero (S := S1024x1) hz2, View.ld_unit_zero (S := S1x1024) hz2]

theorem sC2 (hc0 : ¬cond2_0 i) (hc1 : cond2_1 i)
    (x0 : Vec F S1024x1024 .f32) (x1 : Vec F S1024x128 .f32) (x2 : Vec F S1024x1 .f32) (x3 : Vec F S1x1024 .f32) (xs0 : Vec F S1024x128 .f32) :
    sout2_C_0 c i arg2 harg2 arg3 harg3 arg4 harg4 arg5 harg5 arg6 harg6 arg7 harg7 hc0 hc1 x0 x1 x2 x3 xs0 = k2_pay1 (k2_pay4 i x0 x2 x3 x1 xs0) := by
  unfold sout2_C_0
  rw [View.read_writes_eq_canon _ _ _ (scover2_C_0 c i arg2 harg2 arg3 harg3 arg4 harg4 arg5 harg5 arg6 harg6 arg7 harg7 hc0 hc1 x0 x1 x2 x3 xs0)]
  unfold kernelRun2_C
  dsimp only
  sl_unfold_words
  rw [View.canon_unit_zero hz2]
  simp only [View.readAt_eq_ld, harg2.read_unread, harg3.read_unread, harg4.read_unread, harg5.read_unread, harg6.read_unread, harg7.read_unread, View.ld_unit_zero (S := S1024x1024) hz2, View.ld_unit_zero (S := S1024x128) hz2, View.ld_unit_zero (S := S1024x1) hz2, View.ld_unit_zero (S := S1x1024) hz2]

theorem oC2 (hc0 : ¬cond2_0 i) (hc1 : cond2_1 i)
    (x0 : Vec F S1024x1024 .f32) (x1 : Vec F S1024x128 .f32) (x2 : Vec F S1024x1 .f32) (x3 : Vec F S1x1024 .f32) (xs0 : Vec F S1024x128 .f32) :
    out2_C_4 c i arg2 harg2 arg3 harg3 arg4 harg4 arg5 harg5 arg6 harg6 arg7 harg7 hc0 hc1 x0 x1 x2 x3 xs0 = k2_pay2 (k2_pay1 (k2_pay4 i x0 x2 x3 x1 xs0)) := by
  unfold out2_C_4
  rw [View.read_writes_eq_canon _ _ _ (cover2_C_4 c i arg2 harg2 arg3 harg3 arg4 harg4 arg5 harg5 arg6 harg6 arg7 harg7 hc0 hc1 x0 x1 x2 x3 xs0)]
  unfold kernelRun2_C
  dsimp only
  sl_unfold_words
  rw [View.canon_unit_zero hz2]
  simp only [View.readAt_eq_ld, harg2.read_unread, harg3.read_unread, harg4.read_unread, harg5.read_unread, harg6.read_unread, harg7.read_unread, View.ld_unit_zero (S := S1024x1024) hz2, View.ld_unit_zero (S := S1024x128) hz2, View.ld_unit_zero (S := S1024x1) hz2, View.ld_unit_zero (S := S1x1024) hz2, View.readCov_unit_zero (S := S1024x128) _ hz2]

end

end Pieces

section Payload

theorem lhsAx2_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhsAx2_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhsAx2_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhsAx2_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

theorem matmul2_apply (L : FVec Ideal S1024x1024 .bf16) (R : FVec Ideal S1024x128 .bf16) (p : Fin 1024) (q : Fin 128) :
    matmul dot_S1024x1024_S1024x128_S1024x128_1_0_0_1_n_n none L R (constant (F := Ideal) S1024x128 .f32 0x00000000#32) (ix2 p q)
      = ∑ k : Fin 1024, L (ix2 p k) * R (ix2 k q) := by
  refine (Ideal.matmul_constant_zero_apply dot_S1024x1024_S1024x128_S1024x128_1_0_0_1_n_n none L R (ix2 p q)).trans ?_
  rw [← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 p q) ((contrEquiv1 dot_S1024x1024_S1024x128_S1024x128_1_0_0_1_n_n 1024 rfl rfl).symm k) = ix2 p k := funext fun a => Fin.ext (by
    match a with
    | ⟨0, _⟩ => exact lhsAx2_0 _ _
    | ⟨1, _⟩ => exact (lhsAx2_1 _ _).trans hk)
  have er : dot_S1024x1024_S1024x128_S1024x128_1_0_0_1_n_n.rhsIdx (ix2 p q) ((contrEquiv1 dot_S1024x1024_S1024x128_S1024x128_1_0_0_1_n_n 1024 rfl rfl).symm k) = ix2 k q := funext fun a => Fin.ext (by
    match a with
    | ⟨0, _⟩ => exact (rhsAx2_0 _ _).trans hk
    | ⟨1, _⟩ => exact rhsAx2_1 _ _)
  rw [el, er]

end Payload

section Mask

theorem cmpWord2 (m n : ℕ) (hm : m < 4294967296) (hn : n < 4294967296) :
    IntOp.cmpi .eq (BitVec.ofNat 32 m) (BitVec.ofNat 32 n) = if m = n then 1#1 else 0#1 := by
  unfold IntOp.cmpi
  by_cases h : m = n
  · subst h; simp
  · have hne : BitVec.ofNat 32 m ≠ BitVec.ofNat 32 n := fun e => h (by
      have := congrArg BitVec.toNat e
      simp only [BitVec.toNat_ofNat] at this
      omega)
    rw [if_neg h, show (BitVec.ofNat 32 m == BitVec.ofNat 32 n) = false from beq_eq_false_iff_ne.mpr hne]
    rfl

theorem posWord2 (b : ℕ) (p : ℕ) :
    IntOp.addi (Scalar.muli (BitVec.ofNat 32 b) 1024#32) (BitVec.ofNat 32 p) = BitVec.ofNat 32 (b * 1024 + p) := by
  show BitVec.ofNat 32 b * BitVec.ofNat 32 1024 + BitVec.ofNat 32 p = _
  rw [← BitVec.ofNat_mul, ← BitVec.ofNat_add]

theorem binAt2 (A : Vec Ideal S1024x1024 .f32) (p k : Fin 1024) :
    (sitofp .f32 (extui 32 (cmpf (F := Ideal) .ogt A (broadcast S1024x1024 (Scalar.ofBits (F := Ideal) .f32 0x3F000000#32))) natLt_1_32) : FVec Ideal S1024x1024 .f32) (ix2 p k) = Cert.Spec.bin (A (ix2 p k)) := by
  refine (congrFun (sitofp_extui_eq_uitofp (φ := .f32) (cmpf (F := Ideal) .ogt A (broadcast S1024x1024 (Scalar.ofBits (F := Ideal) .f32 0x3F000000#32))) natLt_1_32) (ix2 p k)).trans ?_
  rfl

def maskBlk2 (b0 b1 : ℕ) (A : Vec Ideal S1024x1024 .f32) : FVec Ideal S1024x1024 .f32 :=
  select (cmpi .eq (broadcastTo S1024x1024 (addi (broadcast S1024x1 (Scalar.muli (BitVec.ofNat 32 b0) 1024#32)) (iota .tc S1024x1 32 [0] iota_S1024x1_d0_w32)) broadcasts_S1024x1_S1024x1024)
      (broadcastTo S1024x1024 (addi (broadcast S1x1024 (Scalar.muli (BitVec.ofNat 32 b1) 1024#32)) (iota .tc S1x1024 32 [1] iota_S1x1024_d1_w32)) broadcasts_S1x1024_S1024x1024))
    (broadcast S1024x1024 (Scalar.ofBits (F := Ideal) .f32 0x3F800000#32))
    (sitofp .f32 (extui 32 (cmpf (F := Ideal) .ogt A (broadcast S1024x1024 (Scalar.ofBits (F := Ideal) .f32 0x3F000000#32))) natLt_1_32))

theorem maskBlk2_apply (b0 b1 : ℕ) (h0 : b0 < 8) (h1 : b1 < 8) (A : Vec Ideal S1024x1024 .f32) (p k : Fin 1024) :
    maskBlk2 b0 b1 A (ix2 p k) = if b0 * 1024 + p.val = b1 * 1024 + k.val then Cert.Spec.oneW else Cert.Spec.bin (A (ix2 p k)) := by
  have er : broadcastTo S1024x1024 (addi (broadcast S1024x1 (Scalar.muli (BitVec.ofNat 32 b0) 1024#32)) (iota .tc S1024x1 32 [0] iota_S1024x1_d0_w32)) broadcasts_S1024x1_S1024x1024 (ix2 p k)
      = BitVec.ofNat 32 (b0 * 1024 + p.val) := by
    refine (broadcastTo_apply _ broadcasts_S1024x1_S1024x1024 (ix2 p k) (ix2 p (0 : Fin 1)) (fun a => by
      match a with
      | ⟨0, _⟩ => rfl
      | ⟨1, _⟩ => rfl)).trans ?_
    show IntOp.addi (Scalar.muli (BitVec.ofNat 32 b0) 1024#32) (iota .tc S1024x1 32 [0] iota_S1024x1_d0_w32 (ix2 p (0 : Fin 1))) = _
    rw [iota_single_apply]
    exact posWord2 b0 p.val
  have ec : broadcastTo S1024x1024 (addi (broadcast S1x1024 (Scalar.muli (BitVec.ofNat 32 b1) 1024#32)) (iota .tc S1x1024 32 [1] iota_S1x1024_d1_w32)) broadcasts_S1x1024_S1024x1024 (ix2 p k)
      = BitVec.ofNat 32 (b1 * 1024 + k.val) := by
    refine (broadcastTo_apply _ broadcasts_S1x1024_S1024x1024 (ix2 p k) (ix2 (0 : Fin 1) k) (fun a => by
      match a with
      | ⟨0, _⟩ => rfl
      | ⟨1, _⟩ => rfl)).trans ?_
    show IntOp.addi (Scalar.muli (BitVec.ofNat 32 b1) 1024#32) (iota .tc S1x1024 32 [1] iota_S1x1024_d1_w32 (ix2 (0 : Fin 1) k)) = _
    rw [iota_single_apply]
    exact posWord2 b1 k.val
  have eb := binAt2 A p k
  unfold maskBlk2
  show Scalar.select (IntOp.cmpi .eq _ _) (Scalar.ofBits (F := Ideal) .f32 0x3F800000#32) _ = _
  rw [er, ec, eb, cmpWord2 _ _ (by have := p.isLt; omega) (by have := k.isLt; omega)]
  by_cases h : b0 * 1024 + p.val = b1 * 1024 + k.val
  · rw [if_pos h, if_pos h]; exact select_one _ _
  · rw [if_neg h, if_neg h]; exact select_zero _ _

theorem pay4_2_eq (i : grid2.Coords) (A : Vec Ideal S1024x1024 .f32) (dr : Vec Ideal S1024x1 .f32) (dc : Vec Ideal S1x1024 .f32)
    (H : Vec Ideal S1024x128 .f32) (acc : Vec Ideal S1024x128 .f32) :
    k2_pay4 i A dr dc H acc
      = addf acc (matmul dot_S1024x1024_S1024x128_S1024x128_1_0_0_1_n_n none
          (truncf .bf16 (mulf (mulf (broadcastTo S1024x1024 (shapeCast S1024x1 dr shapeCasts_S1024x1_S1024x1) broadcasts_S1024x1_S1024x1024) (maskBlk2 (i 0).val (i 1).val A))
            (broadcastTo S1024x1024 (shapeCast S1x1024 dc shapeCasts_S1x1024_S1x1024) broadcasts_S1x1024_S1024x1024)) bitsLt_bf16_f32)
          (truncf .bf16 (shapeCast S1024x128 H shapeCasts_S1024x128_S1024x128) bitsLt_bf16_f32)
          (constant (F := Ideal) S1024x128 .f32 0x00000000#32)) := rfl

theorem pay4_2_apply (i : grid2.Coords) (A : Vec Ideal S1024x1024 .f32) (dr : Vec Ideal S1024x1 .f32) (dc : Vec Ideal S1x1024 .f32)
    (H : Vec Ideal S1024x128 .f32) (acc : Vec Ideal S1024x128 .f32) (p : Fin 1024) (q : Fin 128) :
    k2_pay4 i A dr dc H acc (ix2 p q)
      = acc (ix2 p q) + ∑ k : Fin 1024,
          (dr (ix2 p (0 : Fin 1)) * (if (i 0).val * 1024 + p.val = (i 1).val * 1024 + k.val then Cert.Spec.oneW else Cert.Spec.bin (A (ix2 p k))) * dc (ix2 (0 : Fin 1) k))
            * H (ix2 k q) := by
  rw [pay4_2_eq]
  refine congrArg (acc (ix2 p q) + ·) ?_
  refine (matmul2_apply _ _ p q).trans ?_
  refine Finset.sum_congr rfl fun k _ => ?_
  have h0 : (i 0).val < 8 := (i 0).isLt
  have h1 : (i 1).val < 8 := (i 1).isLt
  have e1 : broadcastTo S1024x1024 (shapeCast S1024x1 dr shapeCasts_S1024x1_S1024x1) broadcasts_S1024x1_S1024x1024 (ix2 p k) = dr (ix2 p (0 : Fin 1)) := by
    rw [shapeCast_self]
    exact broadcastTo_apply dr broadcasts_S1024x1_S1024x1024 (ix2 p k) (ix2 p (0 : Fin 1)) (fun a => by
      match a with
      | ⟨0, _⟩ => rfl
      | ⟨1, _⟩ => rfl)
  have e2 : broadcastTo S1024x1024 (shapeCast S1x1024 dc shapeCasts_S1x1024_S1x1024) broadcasts_S1x1024_S1024x1024 (ix2 p k) = dc (ix2 (0 : Fin 1) k) := by
    rw [shapeCast_self]
    exact broadcastTo_apply dc broadcasts_S1x1024_S1024x1024 (ix2 p k) (ix2 (0 : Fin 1) k) (fun a => by
      match a with
      | ⟨0, _⟩ => rfl
      | ⟨1, _⟩ => rfl)
  have e3 := maskBlk2_apply (i 0).val (i 1).val h0 h1 A p k
  show (broadcastTo S1024x1024 (shapeCast S1024x1 dr shapeCasts_S1024x1_S1024x1) broadcasts_S1024x1_S1024x1024 (ix2 p k) * maskBlk2 (i 0).val (i 1).val A (ix2 p k)
      * broadcastTo S1024x1024 (shapeCast S1x1024 dc shapeCasts_S1x1024_S1x1024) broadcasts_S1x1024_S1024x1024 (ix2 p k))
      * shapeCast S1024x128 H shapeCasts_S1024x128_S1024x128 (ix2 k q) = _
  rw [e1, e2, e3, shapeCast_self]

end Mask

section AtIdeal

variable (V : (c : Dev nD) → (b : Ref sig .tc) → Buf (Elt Ideal) ((c : Thread nD τ).loc b))

abbrev adj2 (c : Dev nD) : FVec Ideal S8192x8192 .f32 := V c (Pipeline.arrRef spec2 0)
abbrev h2 (c : Dev nD) : FVec Ideal S8192x128 .f32 := V c (Pipeline.arrRef spec2 1)
abbrev drow2 (c : Dev nD) : FVec Ideal S8192x1 .f32 := V c (Pipeline.arrRef spec2 2)
abbrev dcol2 (c : Dev nD) : FVec Ideal S1x8192 .f32 := V c (Pipeline.arrRef spec2 3)

abbrev adjB2 (c : Dev nD) (t : Fin cfg2.N) : Vec Ideal S1024x1024 .f32 := iblk2 V c 0 t
abbrev hB2 (c : Dev nD) (t : Fin cfg2.N) : Vec Ideal S1024x128 .f32 := iblk2 V c 1 t
abbrev drB2 (c : Dev nD) (t : Fin cfg2.N) : Vec Ideal S1024x1 .f32 := iblk2 V c 2 t
abbrev dcB2 (c : Dev nD) (t : Fin cfg2.N) : Vec Ideal S1x1024 .f32 := iblk2 V c 3 t

def gpos2 (b : ℕ) (hb : b < 8) (p : Fin 1024) : Fin 8192 := ⟨1024 * b + p.val, by have := p.isLt; omega⟩

theorem idxF2 : ∀ t : Fin cfg2.N,
    win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = t.val / 8 ∧ win2_2.index t (1 : Fin 2) = 0
    ∧ win2_3.index t (0 : Fin 2) = 0 ∧ win2_3.index t (1 : Fin 2) = t.val % 8
    ∧ win2_4.index t (0 : Fin 2) = t.val / 8 ∧ win2_4.index t (1 : Fin 2) = 0
    ∧ (grid2.coords t 0).val = t.val / 8 ∧ (grid2.coords t 1).val = t.val % 8 :=
  (by decide +kernel : ∀ t : Fin grid2.N, _)

theorem adjB2_apply (c : Dev nD) (t : Fin cfg2.N) (i j : ℕ) (hi : i < 8) (hj : j < 8) (hti : t.val / 8 = i) (htj : t.val % 8 = j) (p k : Fin 1024) :
    adjB2 V c t (ix2 p k) = adj2 V c (ix2 (gpos2 i hi p) (gpos2 j hj k)) := by
  obtain ⟨e00, e01, -⟩ := idxF2 t
  show V c (Pipeline.arrRef spec2 0) (((cfg2.win 0).blk t).view.emb (ix2 p k)) = V c (Pipeline.arrRef spec2 0) _
  refine congrArg _ (funext fun a => Fin.ext ?_)
  match a with
  | ⟨0, _⟩ => show win2_0.index t (0 : Fin 2) * 1024 + 1 * p.val = 1024 * i + p.val; omega
  | ⟨1, _⟩ => show win2_0.index t (1 : Fin 2) * 1024 + 1 * k.val = 1024 * j + k.val; omega

theorem hB2_apply (c : Dev nD) (t : Fin cfg2.N) (j : ℕ) (hj : j < 8) (htj : t.val % 8 = j) (k : Fin 1024) (q : Fin 128) :
    hB2 V c t (ix2 k q) = h2 V c (ix2 (gpos2 j hj k) q) := by
  obtain ⟨-, -, e10, e11, -⟩ := idxF2 t
  show V c (Pipeline.arrRef spec2 1) (((cfg2.win 1).blk t).view.emb (ix2 k q)) = V c (Pipeline.arrRef spec2 1) _
  refine congrArg _ (funext fun a => Fin.ext ?_)
  match a with
  | ⟨0, _⟩ => show win2_1.index t (0 : Fin 2) * 1024 + 1 * k.val = 1024 * j + k.val; omega
  | ⟨1, _⟩ => show win2_1.index t (1 : Fin 2) * 128 + 1 * q.val = q.val; omega

theorem drB2_apply (c : Dev nD) (t : Fin cfg2.N) (i : ℕ) (hi : i < 8) (hti : t.val / 8 = i) (p : Fin 1024) :
    drB2 V c t (ix2 p (0 : Fin 1)) = drow2 V c (ix2 (gpos2 i hi p) (0 : Fin 1)) := by
  obtain ⟨-, -, -, -, e20, e21, -⟩ := idxF2 t
  show V c (Pipeline.arrRef spec2 2) (((cfg2.win 2).blk t).view.emb (ix2 p (0 : Fin 1))) = V c (Pipeline.arrRef spec2 2) _
  refine congrArg _ (funext fun a => Fin.ext ?_)
  match a with
  | ⟨0, _⟩ => show win2_2.index t (0 : Fin 2) * 1024 + 1 * p.val = 1024 * i + p.val; omega
  | ⟨1, _⟩ => show win2_2.index t (1 : Fin 2) * 1 + 1 * 0 = 0; omega

theorem dcB2_apply (c : Dev nD) (t : Fin cfg2.N) (j : ℕ) (hj : j < 8) (htj : t.val % 8 = j) (k : Fin 1024) :
    dcB2 V c t (ix2 (0 : Fin 1) k) = dcol2 V c (ix2 (0 : Fin 1) (gpos2 j hj k)) := by
  obtain ⟨-, -, -, -, -, -, e30, e31, -⟩ := idxF2 t
  show V c (Pipeline.arrRef spec2 3) (((cfg2.win 3).blk t).view.emb (ix2 (0 : Fin 1) k)) = V c (Pipeline.arrRef spec2 3) _
  refine congrArg _ (funext fun a => Fin.ext ?_)
  match a with
  | ⟨0, _⟩ => show win2_3.index t (0 : Fin 2) * 1 + 1 * 0 = 0; omega
  | ⟨1, _⟩ => show win2_3.index t (1 : Fin 2) * 1024 + 1 * k.val = 1024 * j + k.val; omega

def term2 (c : Dev nD) (r : Fin 8192) (q : Fin 128) (k : Fin 8192) : EReal :=
  (drow2 V c (ix2 r (0 : Fin 1)) * Cert.Spec.mask (adj2 V c) r k * dcol2 V c (ix2 (0 : Fin 1) k)) * h2 V c (ix2 k q)

theorem blockSum2 (c : Dev nD) (t : Fin cfg2.N) (i j : ℕ) (hi : i < 8) (hj : j < 8) (hti : t.val / 8 = i) (htj : t.val % 8 = j)
    (acc : Vec Ideal S1024x128 .f32) (p : Fin 1024) (q : Fin 128) :
    k2_pay4 (grid2.coords t) (adjB2 V c t) (drB2 V c t) (dcB2 V c t) (hB2 V c t) acc (ix2 p q)
      = acc (ix2 p q) + ∑ k : Fin 1024, term2 V c (gpos2 i hi p) q (gpos2 j hj k) := by
  refine (pay4_2_apply (grid2.coords t) (adjB2 V c t) (drB2 V c t) (dcB2 V c t) (hB2 V c t) acc p q).trans ?_
  refine congrArg (acc (ix2 p q) + ·) (Finset.sum_congr rfl fun k _ => ?_)
  obtain ⟨-, -, -, -, -, -, -, -, -, -, ec0, ec1⟩ := idxF2 t
  rw [adjB2_apply V c t i j hi hj hti htj p k, hB2_apply V c t j hj htj k q, drB2_apply V c t i hi hti p, dcB2_apply V c t j hj htj k]
  have hcond : ((grid2.coords t 0).val * 1024 + p.val = (grid2.coords t 1).val * 1024 + k.val) ↔ (gpos2 i hi p = gpos2 j hj k) := by
    rw [ec0, ec1, hti, htj]; unfold gpos2; rw [Fin.mk.injEq]; omega
  unfold term2 Cert.Spec.mask
  rw [if_congr hcond rfl rfl]

theorem outsAt2_congr (c : Dev nD) (n m : ℕ) (hn : n < cfg2.N) (hm : m < cfg2.N) (h : n = m) :
    outsAt2 V c n hn = outsAt2 V c m hm := by subst h; rfl

def accAt2 (c : Dev nD) (i : ℕ) (p : Fin 1024) (q : Fin 128) : ℕ → EReal
  | 0 => 0
  | n + 1 => if h : 8 * i + n < cfg2.N then (outsAt2 V c (8 * i + n) h).2 (ix2 p q) else 0

theorem pay3_2_apply (p : Fin 1024) (q : Fin 128) : (k2_pay3 (F := Ideal)) (ix2 p q) = 0 :=
  Ideal.ofBits_zero_f32

theorem pay1_2_eq (x : FVec Ideal S1024x128 .f32) : k2_pay1 x = x := shapeCast_self x _

theorem pay2_2_apply (x : Vec Ideal S1024x128 .f32) (p : Fin 1024) (q : Fin 128) : k2_pay2 x (ix2 p q) = max (x (ix2 p q)) 0 := by
  show max (x (ix2 p q)) (Ideal.ofBits .f32 0x00000000#32) = _
  rw [Ideal.ofBits_zero_f32]

theorem accStep2 (c : Dev nD) (i : ℕ) (hi : i < 8) (p : Fin 1024) (q : Fin 128) (j : ℕ) (hj : j < 8) :
    accAt2 V c i p q (j + 1) = accAt2 V c i p q j + ∑ k : Fin 1024, term2 V c (gpos2 i hi p) q (gpos2 j hj k) := by
  have hN : cfg2.N = 64 := N_2
  have ht : 8 * i + j < cfg2.N := by rw [hN]; omega
  show (if h : 8 * i + j < cfg2.N then (outsAt2 V c (8 * i + j) h).2 (ix2 p q) else 0) = _
  rw [dif_pos ht]
  generalize htdef : (⟨8 * i + j, ht⟩ : Fin cfg2.N) = t
  have htv : t.val = 8 * i + j := by rw [← htdef]
  have hti : t.val / 8 = i := by omega
  have htj : t.val % 8 = j := by omega
  rw [outsAt2_congr V c (8 * i + j) t.val ht t.isLt htv.symm]
  cases j with
  | zero =>
    have h0 : t.val % 8 = 0 := htj
    have h1 : ¬t.val % 8 = 7 := by omega
    rw [outsAt2_A V c t h0 h1]; dsimp only
    refine (congrFun (sA2 (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (adjB2 V c t) (hB2 V c t) (drB2 V c t) (dcB2 V c t)) (ix2 p q)).trans ?_
    rw [pay1_2_eq]
    refine (blockSum2 V c t i 0 hi hj hti htj _ p q).trans ?_
    rw [pay3_2_apply]
    rfl
  | succ j' =>
    have h0 : ¬t.val % 8 = 0 := by omega
    have hprev : 8 * i + j' < cfg2.N := by rw [hN]; omega
    have eprev : accAt2 V c i p q (j' + 1) = (outsAt2 V c (t.val - 1) (Nat.lt_of_le_of_lt (Nat.sub_le _ _) t.isLt)).2 (ix2 p q) := by
      show (if h : 8 * i + j' < cfg2.N then (outsAt2 V c (8 * i + j') h).2 (ix2 p q) else 0) = _
      rw [dif_pos hprev, outsAt2_congr V c (8 * i + j') (t.val - 1) hprev (Nat.lt_of_le_of_lt (Nat.sub_le _ _) t.isLt) (by omega)]
    rw [eprev]
    by_cases h1 : t.val % 8 = 7
    · rw [outsAt2_C V c t h0 h1]; dsimp only
      refine (congrFun (sC2 (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (adjB2 V c t) (hB2 V c t) (drB2 V c t) (dcB2 V c t) (outsAt2 V c (t.val - 1) (Nat.lt_of_le_of_lt (Nat.sub_le _ _) t.isLt)).2) (ix2 p q)).trans ?_
      rw [pay1_2_eq]
      exact blockSum2 V c t i (j' + 1) hi hj hti htj _ p q
    · rw [outsAt2_B V c t h0 h1]; dsimp only
      refine (congrFun (sB2 (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (adjB2 V c t) (hB2 V c t) (drB2 V c t) (dcB2 V c t) (outsAt2 V c (t.val - 1) (Nat.lt_of_le_of_lt (Nat.sub_le _ _) t.isLt)).2) (ix2 p q)).trans ?_
      rw [pay1_2_eq]
      exact blockSum2 V c t i (j' + 1) hi hj hti htj _ p q

theorem accLast2 (c : Dev nD) (i : ℕ) (hi : i < 8) (p : Fin 1024) (q : Fin 128) (ht : 8 * i + 7 < cfg2.N) :
    (outsAt2 V c (8 * i + 7) ht).2 (ix2 p q) = ∑ k : Fin 8192, term2 V c (gpos2 i hi p) q k := by
  have hfold := Cert.LibBlockSum.sum_fin_mul_eq_fold 8 1024 (fun k : Fin (8 * 1024) => term2 V c (gpos2 i hi p) q k) (accAt2 V c i p q) rfl
    (fun j hj => accStep2 V c i hi p q j hj)
  refine Eq.trans ?_ hfold.symm
  show _ = (if h : 8 * i + 7 < cfg2.N then (outsAt2 V c (8 * i + 7) h).2 (ix2 p q) else 0)
  rw [dif_pos ht]

end AtIdeal

section Final

variable (V : (c : Dev nD) → (b : Ref sig .tc) → Buf (Elt Ideal) ((c : Thread nD τ).loc b))

def G2 (c : Dev nD) : Vec Ideal S8192x128 .f32 := fun y =>
  Cert.Spec.propWith (adj2 V c) (fun r => drow2 V c (ix2 r (0 : Fin 1))) (fun k => dcol2 V c (ix2 (0 : Fin 1) k)) (fun k q => h2 V c (ix2 k q))
    (⟨(y 0).val, idx2_lt0 y⟩ : Fin 8192) (⟨(y 1).val, idx2_lt1 y⟩ : Fin 128)

theorem outLast2 (c : Dev nD) (t : Fin cfg2.N) (h0 : ¬t.val % 8 = 0) (h1 : t.val % 8 = 7) :
    (outsAt2 V c t.val t.isLt).1 = k2_pay2 (outsAt2 V c t.val t.isLt).2 := by
  rw [outsAt2_C V c t h0 h1]; dsimp only
  rw [oC2 (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (adjB2 V c t) (hB2 V c t) (drB2 V c t) (dcB2 V c t) (outsAt2 V c (t.val - 1) (Nat.lt_of_le_of_lt (Nat.sub_le _ _) t.isLt)).2,
    sC2 (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (adjB2 V c t) (hB2 V c t) (drB2 V c t) (dcB2 V c t) (outsAt2 V c (t.val - 1) (Nat.lt_of_le_of_lt (Nat.sub_le _ _) t.isLt)).2]

theorem flushed2_eq (c : Dev nD) (t : Fin cfg2.N) (hf : (cfg2.win 4).flush t = true) :
    (dat2 V c).flushed 4 t = ((cfg2.win 4).blk t).view.read (Elt Ideal) (G2 V c) := by
  have hN : cfg2.N = 64 := N_2
  have hlt : t.val < 64 := lt_of_lt_of_eq t.isLt hN
  have h1 : t.val % 8 = 7 := (flush2_4 t).mp hf
  have h0 : ¬t.val % 8 = 0 := by omega
  have hi : t.val / 8 < 8 := by omega
  obtain ⟨-, -, -, -, -, -, -, -, e40, e41, -⟩ := idxF2 t
  show (cfg2.win 4).cut (grid2.coords t) ((dat2 V c).after 4 t) = _
  rw [after2_4, outLast2 V c t h0 h1]
  funext y
  obtain ⟨p, q, rfl⟩ : ∃ (p : Fin 1024) (q : Fin 128), y = ix2 p q := ⟨y 0, y 1, eq_ix2 y⟩
  refine (pay2_2_apply _ p q).trans ?_
  have h87 : 8 * (t.val / 8) + 7 < cfg2.N := lt_of_lt_of_eq (show 8 * (t.val / 8) + 7 < 64 by omega) hN.symm
  have hacc := accLast2 V c (t.val / 8) hi p q h87
  rw [outsAt2_congr V c t.val (8 * (t.val / 8) + 7) t.isLt h87 (by omega), hacc]
  show _ = Cert.Spec.propWith (adj2 V c) (fun r => drow2 V c (ix2 r (0 : Fin 1))) (fun k => dcol2 V c (ix2 (0 : Fin 1) k)) (fun k q => h2 V c (ix2 k q))
    (⟨(((cfg2.win 4).blk t).view.emb (ix2 p q) 0).val, _⟩ : Fin 8192) (⟨(((cfg2.win 4).blk t).view.emb (ix2 p q) 1).val, _⟩ : Fin 128)
  have er : (⟨(((cfg2.win 4).blk t).view.emb (ix2 p q) 0).val, idx2_lt0 _⟩ : Fin 8192) = gpos2 (t.val / 8) hi p := Fin.ext (by
    show win2_4.index t (0 : Fin 2) * 1024 + 1 * p.val = 1024 * (t.val / 8) + p.val; omega)
  have eq : (⟨(((cfg2.win 4).blk t).view.emb (ix2 p q) 1).val, idx2_lt1 _⟩ : Fin 128) = q := Fin.ext (by
    show win2_4.index t (1 : Fin 2) * 128 + 1 * q.val = q.val; omega)
  rw [er, eq]
  rfl

theorem mem_blk2 (t : Fin cfg2.N) (i : S8192x128.Idx) :
    i ∈ ((cfg2.win 4).blk t).view.set ↔ ∀ a : Fin 2, win2_4.index t a * S1024x128.size a ≤ (i a).val ∧ (i a).val < win2_4.index t a * S1024x128.size a + S1024x128.size a := by
  show i ∈ ((View.whole main_v5).slice (win2_4.rect t)).set ↔ _
  rw [View.set_slice_whole, Rect.mem_set_unit]
  exact Iff.rfl

theorem cover2 (i : S8192x128.Idx) : ∃ t : Fin cfg2.N, (cfg2.win 4).flush t = true ∧ i ∈ ((cfg2.win 4).blk t).view.set := by
  have hN : cfg2.N = 64 := N_2
  have hi0 : (i 0).val < 8192 := idx2_lt0 i
  have hi1 : (i 1).val < 128 := idx2_lt1 i
  have ht : 8 * ((i 0).val / 1024) + 7 < cfg2.N := by rw [hN]; omega
  refine ⟨⟨8 * ((i 0).val / 1024) + 7, ht⟩, (flush2_4 _).mpr (by show (8 * ((i 0).val / 1024) + 7) % 8 = 7; omega), ?_⟩
  obtain ⟨-, -, -, -, -, -, -, -, e40, e41, -⟩ := idxF2 ⟨8 * ((i 0).val / 1024) + 7, ht⟩
  rw [mem_blk2]
  intro a
  match a with
  | ⟨0, _⟩ =>
    show win2_4.index ⟨8 * ((i 0).val / 1024) + 7, ht⟩ (0 : Fin 2) * 1024 ≤ (i 0).val ∧ (i 0).val < win2_4.index ⟨8 * ((i 0).val / 1024) + 7, ht⟩ (0 : Fin 2) * 1024 + 1024
    rw [e40]; show (8 * ((i 0).val / 1024) + 7) / 8 * 1024 ≤ (i 0).val ∧ (i 0).val < (8 * ((i 0).val / 1024) + 7) / 8 * 1024 + 1024; omega
  | ⟨1, _⟩ =>
    show win2_4.index ⟨8 * ((i 0).val / 1024) + 7, ht⟩ (1 : Fin 2) * 128 ≤ (i 1).val ∧ (i 1).val < win2_4.index ⟨8 * ((i 0).val / 1024) + 7, ht⟩ (1 : Fin 2) * 128 + 128
    rw [e41]; omega

-- each output entry is the larger of 0 and the weighted mask row against the feature column
theorem final2 (c : Dev nD) (r : Fin 8192) (q : Fin 128) :
    ((dat2 (F := Ideal) V c).arrAt 4 cfg2.N : S8192x128.Idx → EReal) (ix2 r q)
      = Cert.Spec.propWith (adj2 V c) (fun r => drow2 V c (ix2 r (0 : Fin 1))) (fun k => dcol2 V c (ix2 (0 : Fin 1) k)) (fun k q => h2 V c (ix2 k q)) r q := by
  rw [(dat2 (F := Ideal) V c).arrAt_eq_of_cover 4 (G2 V c) (fun t hf => flushed2_eq V c t hf) (cover2)]
  rfl

end Final

end Cert.KernelIdeal.HandValue

end
-- ==== Proof.KI.Prop4Value.lean ====
import proofs.«417937_j15461882266039_1_alg».proof.Proof.KI.Prop4
import proofs.«417937_j15461882266039_1_alg».proof.Proof.KI.Prop2Value
import proofs.«417937_j15461882266039_1_alg».proof.Proof.Spec
import Idealize.ShloMosaic.Lib.Pipeline.Value
import Idealize.ShloMosaic.Lib.ValueIdx
import Idealize.ShloMosaic.Lib.KernelVsHost
import Idealize.ShloMosaic.PureOps.Ideal.Laws
import proofs.«417937_j15461882266039_1_alg».proof.Proof.LibBlockSum
import Idealize.ShloMosaic.Lib.Tactic
set_option maxRecDepth 16384
noncomputable section

namespace Cert.KernelIdeal.HandValue

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.Hand
open scoped BigOperators

section Pieces
variable {F : FTy → Type} [FloatOps F]

theorem hz4 : (![0, 0] : Fin 2 → Nat) = fun _ => 0 := funext fun a => by fin_cases a <;> rfl

section
variable (c : Dev nD) (i : grid4.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x64 .f32) (harg6 : arg6.IsWhole) (arg7 : Memref sig .tc .vmem S1024x64 .f32) (harg7 : arg7.IsWhole)

theorem sA4 (hc0 : cond4_0 i) (hc1 : ¬cond4_1 i)
    (x0 : Vec F S1024x1024 .f32) (x1 : Vec F S1024x64 .f32) (x2 : Vec F S1024x1 .f32) (x3 : Vec F S1x1024 .f32) :
    sout4_A_0 c i arg2 harg2 arg3 harg3 arg4 harg4 arg5 harg5 arg6 harg6 arg7 harg7 hc0 hc1 x0 x1 x2 x3 = k4_pay1 (k4_pay4 i x0 x2 x3 x1 (k4_pay3 (F := F))) := by
  unfold sout4_A_0
  rw [View.read_writes_eq_canon _ _ _ (scover4_A_0 c i arg2 harg2 arg3 harg3 arg4 harg4 arg5 harg5 arg6 harg6 arg7 harg7 hc0 hc1 x0 x1 x2 x3)]
  unfold kernelRun4_A
  dsimp only
  sl_unfold_words
  rw [View.canon_cons_unit_zero (S := S1024x64) hz4, View.readCov_unit_zero (S := S1024x64) _ hz4]
  simp only [View.readAt_eq_ld, harg2.read_unread, harg3.read_unread, harg4.read_unread, harg5.read_unread, harg6.read_unread, harg7.read_unread, View.ld_unit_zero (S := S1024x1024) hz4, View.ld_unit_zero (S := S1024x64) hz4, View.ld_unit_zero (S := S1024x1) hz4, View.ld_unit_zero (S := S1x1024) hz4, View.readCov_unit_zero (S := S1024x64) _ hz4]

theorem sB4 (hc0 : ¬cond4_0 i) (hc1 : ¬cond4_1 i)
    (x0 : Vec F S1024x1024 .f32) (x1 : Vec F S1024x64 .f32) (x2 : Vec F S1024x1 .f32) (x3 : Vec F S1x1024 .f32) (xs0 : Vec F S1024x64 .f32) :
    sout4_B_0 c i arg2 harg2 arg3 harg3 arg4 harg4 arg5 harg5 arg6 harg6 arg7 harg7 hc0 hc1 x0 x1 x2 x3 xs0 = k4_pay1 (k4_pay4 i x0 x2 x3 x1 xs0) := by
  unfold sout4_B_0
  rw [View.read_writes_eq_canon _ _ _ (scover4_B_0 c i arg2 harg2 arg3 harg3 arg4 harg4 arg5 harg5 arg6 harg6 arg7 harg7 hc0 hc1 x0 x1 x2 x3 xs0)]
  unfold kernelRun4_B
  dsimp only
  sl_unfold_words
  rw [View.canon_unit_zero hz4]
  simp only [View.readAt_eq_ld, harg2.read_unread, harg3.read_unread, harg4.read_unread, harg5.read_unread, harg6.read_unread, harg7.read_unread, View.ld_unit_zero (S := S1024x1024) hz4, View.ld_unit_zero (S := S1024x64) hz4, View.ld_unit_zero (S := S1024x1) hz4, View.ld_unit_zero (S := S1x1024) hz4]

theorem sC4 (hc0 : ¬cond4_0 i) (hc1 : cond4_1 i)
    (x0 : Vec F S1024x1024 .f32) (x1 : Vec F S1024x64 .f32) (x2 : Vec F S1024x1 .f32) (x3 : Vec F S1x1024 .f32) (xs0 : Vec F S1024x64 .f32) :
    sout4_C_0 c i arg2 harg2 arg3 harg3 arg4 harg4 arg5 harg5 arg6 harg6 arg7 harg7 hc0 hc1 x0 x1 x2 x3 xs0 = k4_pay1 (k4_pay4 i x0 x2 x3 x1 xs0) := by
  unfold sout4_C_0
  rw [View.read_writes_eq_canon _ _ _ (scover4_C_0 c i arg2 harg2 arg3 harg3 arg4 harg4 arg5 harg5 arg6 harg6 arg7 harg7 hc0 hc1 x0 x1 x2 x3 xs0)]
  unfold kernelRun4_C
  dsimp only
  sl_unfold_words
  rw [View.canon_unit_zero hz4]
  simp only [View.readAt_eq_ld, harg2.read_unread, harg3.read_unread, harg4.read_unread, harg5.read_unread, harg6.read_unread, harg7.read_unread, View.ld_unit_zero (S := S1024x1024) hz4, View.ld_unit_zero (S := S1024x64) hz4, View.ld_unit_zero (S := S1024x1) hz4, View.ld_unit_zero (S := S1x1024) hz4]

theorem oC4 (hc0 : ¬cond4_0 i) (hc1 : cond4_1 i)
    (x0 : Vec F S1024x1024 .f32) (x1 : Vec F S1024x64 .f32) (x2 : Vec F S1024x1 .f32) (x3 : Vec F S1x1024 .f32) (xs0 : Vec F S1024x64 .f32) :
    out4_C_4 c i arg2 harg2 arg3 harg3 arg4 harg4 arg5 harg5 arg6 harg6 arg7 harg7 hc0 hc1 x0 x1 x2 x3 xs0 = k4_pay2 (k4_pay1 (k4_pay4 i x0 x2 x3 x1 xs0)) := by
  unfold out4_C_4
  rw [View.read_writes_eq_canon _ _ _ (cover4_C_4 c i arg2 harg2 arg3 harg3 arg4 harg4 arg5 harg5 arg6 harg6 arg7 harg7 hc0 hc1 x0 x1 x2 x3 xs0)]
  unfold kernelRun4_C
  dsimp only
  sl_unfold_words
  rw [View.canon_unit_zero hz4]
  simp only [View.readAt_eq_ld, harg2.read_unread, harg3.read_unread, harg4.read_unread, harg5.read_unread, harg6.read_unread, harg7.read_unread, View.ld_unit_zero (S := S1024x1024) hz4, View.ld_unit_zero (S := S1024x64) hz4, View.ld_unit_zero (S := S1024x1) hz4, View.ld_unit_zero (S := S1x1024) hz4, View.readCov_unit_zero (S := S1024x64) _ hz4]

end

end Pieces

section Payload

theorem lhsAx4_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem lhsAx4_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhsAx4_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhsAx4_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

theorem matmul4_apply (L : FVec Ideal S1024x1024 .bf16) (R : FVec Ideal S1024x64 .bf16) (p : Fin 1024) (q : Fin 64) :
    matmul dot_S1024x1024_S1024x64_S1024x64_1_0_0_1_n_n none L R (constant (F := Ideal) S1024x64 .f32 0x00000000#32) (ix2 p q)
      = ∑ k : Fin 1024, L (ix2 p k) * R (ix2 k q) := by
  refine (Ideal.matmul_constant_zero_apply dot_S1024x1024_S1024x64_S1024x64_1_0_0_1_n_n none L R (ix2 p q)).trans ?_
  rw [← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 p q) ((contrEquiv1 dot_S1024x1024_S1024x64_S1024x64_1_0_0_1_n_n 1024 rfl rfl).symm k) = ix2 p k := funext fun a => Fin.ext (by
    match a with
    | ⟨0, _⟩ => exact lhsAx4_0 _ _
    | ⟨1, _⟩ => exact (lhsAx4_1 _ _).trans hk)
  have er : dot_S1024x1024_S1024x64_S1024x64_1_0_0_1_n_n.rhsIdx (ix2 p q) ((contrEquiv1 dot_S1024x1024_S1024x64_S1024x64_1_0_0_1_n_n 1024 rfl rfl).symm k) = ix2 k q := funext fun a => Fin.ext (by
    match a with
    | ⟨0, _⟩ => exact (rhsAx4_0 _ _).trans hk
    | ⟨1, _⟩ => exact rhsAx4_1 _ _)
  rw [el, er]

end Payload

section Mask

theorem pay4_4_eq (i : grid4.Coords) (A : Vec Ideal S1024x1024 .f32) (dr : Vec Ideal S1024x1 .f32) (dc : Vec Ideal S1x1024 .f32)
    (H : Vec Ideal S1024x64 .f32) (acc : Vec Ideal S1024x64 .f32) :
    k4_pay4 i A dr dc H acc
      = addf acc (matmul dot_S1024x1024_S1024x64_S1024x64_1_0_0_1_n_n none
          (truncf .bf16 (mulf (mulf (broadcastTo S1024x1024 (shapeCast S1024x1 dr shapeCasts_S1024x1_S1024x1) broadcasts_S1024x1_S1024x1024) (maskBlk2 (i 0).val (i 1).val A))
            (broadcastTo S1024x1024 (shapeCast S1x1024 dc shapeCasts_S1x1024_S1x1024) broadcasts_S1x1024_S1024x1024)) bitsLt_bf16_f32)
          (truncf .bf16 (shapeCast S1024x64 H shapeCasts_S1024x64_S1024x64) bitsLt_bf16_f32)
          (constant (F := Ideal) S1024x64 .f32 0x00000000#32)) := rfl

theorem pay4_4_apply (i : grid4.Coords) (A : Vec Ideal S1024x1024 .f32) (dr : Vec Ideal S1024x1 .f32) (dc : Vec Ideal S1x1024 .f32)
    (H : Vec Ideal S1024x64 .f32) (acc : Vec Ideal S1024x64 .f32) (p : Fin 1024) (q : Fin 64) :
    k4_pay4 i A dr dc H acc (ix2 p q)
      = acc (ix2 p q) + ∑ k : Fin 1024,
          (dr (ix2 p (0 : Fin 1)) * (if (i 0).val * 1024 + p.val = (i 1).val * 1024 + k.val then Cert.Spec.oneW else Cert.Spec.bin (A (ix2 p k))) * dc (ix2 (0 : Fin 1) k))
            * H (ix2 k q) := by
  rw [pay4_4_eq]
  refine congrArg (acc (ix2 p q) + ·) ?_
  refine (matmul4_apply _ _ p q).trans ?_
  refine Finset.sum_congr rfl fun k _ => ?_
  have h0 : (i 0).val < 8 := (i 0).isLt
  have h1 : (i 1).val < 8 := (i 1).isLt
  have e1 : broadcastTo S1024x1024 (shapeCast S1024x1 dr shapeCasts_S1024x1_S1024x1) broadcasts_S1024x1_S1024x1024 (ix2 p k) = dr (ix2 p (0 : Fin 1)) := by
    rw [shapeCast_self]
    exact broadcastTo_apply dr broadcasts_S1024x1_S1024x1024 (ix2 p k) (ix2 p (0 : Fin 1)) (fun a => by
      match a with
      | ⟨0, _⟩ => rfl
      | ⟨1, _⟩ => rfl)
  have e2 : broadcastTo S1024x1024 (shapeCast S1x1024 dc shapeCasts_S1x1024_S1x1024) broadcasts_S1x1024_S1024x1024 (ix2 p k) = dc (ix2 (0 : Fin 1) k) := by
    rw [shapeCast_self]
    exact broadcastTo_apply dc broadcasts_S1x1024_S1024x1024 (ix2 p k) (ix2 (0 : Fin 1) k) (fun a => by
      match a with
      | ⟨0, _⟩ => rfl
      | ⟨1, _⟩ => rfl)
  have e3 := maskBlk2_apply (i 0).val (i 1).val h0 h1 A p k
  show (broadcastTo S1024x1024 (shapeCast S1024x1 dr shapeCasts_S1024x1_S1024x1) broadcasts_S1024x1_S1024x1024 (ix2 p k) * maskBlk2 (i 0).val (i 1).val A (ix2 p k)
      * broadcastTo S1024x1024 (shapeCast S1x1024 dc shapeCasts_S1x1024_S1x1024) broadcasts_S1x1024_S1024x1024 (ix2 p k))
      * shapeCast S1024x64 H shapeCasts_S1024x64_S1024x64 (ix2 k q) = _
  rw [e1, e2, e3, shapeCast_self]

end Mask

section AtIdeal

variable (V : (c : Dev nD) → (b : Ref sig .tc) → Buf (Elt Ideal) ((c : Thread nD τ).loc b))

abbrev adj4 (c : Dev nD) : FVec Ideal S8192x8192 .f32 := V c (Pipeline.arrRef spec4 0)
abbrev h4 (c : Dev nD) : FVec Ideal S8192x64 .f32 := V c (Pipeline.arrRef spec4 1)
abbrev drow4 (c : Dev nD) : FVec Ideal S8192x1 .f32 := V c (Pipeline.arrRef spec4 2)
abbrev dcol4 (c : Dev nD) : FVec Ideal S1x8192 .f32 := V c (Pipeline.arrRef spec4 3)

abbrev adjB4 (c : Dev nD) (t : Fin cfg4.N) : Vec Ideal S1024x1024 .f32 := iblk4 V c 0 t
abbrev hB4 (c : Dev nD) (t : Fin cfg4.N) : Vec Ideal S1024x64 .f32 := iblk4 V c 1 t
abbrev drB4 (c : Dev nD) (t : Fin cfg4.N) : Vec Ideal S1024x1 .f32 := iblk4 V c 2 t
abbrev dcB4 (c : Dev nD) (t : Fin cfg4.N) : Vec Ideal S1x1024 .f32 := iblk4 V c 3 t

def gpos4 (b : ℕ) (hb : b < 8) (p : Fin 1024) : Fin 8192 := ⟨1024 * b + p.val, by have := p.isLt; omega⟩

theorem idxF4 : ∀ t : Fin cfg4.N,
    win4_0.index t (0 : Fin 2) = t.val / 8 ∧ win4_0.index t (1 : Fin 2) = t.val % 8
    ∧ win4_1.index t (0 : Fin 2) = t.val % 8 ∧ win4_1.index t (1 : Fin 2) = 0
    ∧ win4_2.index t (0 : Fin 2) = t.val / 8 ∧ win4_2.index t (1 : Fin 2) = 0
    ∧ win4_3.index t (0 : Fin 2) = 0 ∧ win4_3.index t (1 : Fin 2) = t.val % 8
    ∧ win4_4.index t (0 : Fin 2) = t.val / 8 ∧ win4_4.index t (1 : Fin 2) = 0
    ∧ (grid4.coords t 0).val = t.val / 8 ∧ (grid4.coords t 1).val = t.val % 8 :=
  (by decide +kernel : ∀ t : Fin grid4.N, _)

theorem adjB4_apply (c : Dev nD) (t : Fin cfg4.N) (i j : ℕ) (hi : i < 8) (hj : j < 8) (hti : t.val / 8 = i) (htj : t.val % 8 = j) (p k : Fin 1024) :
    adjB4 V c t (ix2 p k) = adj4 V c (ix2 (gpos4 i hi p) (gpos4 j hj k)) := by
  obtain ⟨e00, e01, -⟩ := idxF4 t
  show V c (Pipeline.arrRef spec4 0) (((cfg4.win 0).blk t).view.emb (ix2 p k)) = V c (Pipeline.arrRef spec4 0) _
  refine congrArg _ (funext fun a => Fin.ext ?_)
  match a with
  | ⟨0, _⟩ => show win4_0.index t (0 : Fin 2) * 1024 + 1 * p.val = 1024 * i + p.val; omega
  | ⟨1, _⟩ => show win4_0.index t (1 : Fin 2) * 1024 + 1 * k.val = 1024 * j + k.val; omega

theorem hB4_apply (c : Dev nD) (t : Fin cfg4.N) (j : ℕ) (hj : j < 8) (htj : t.val % 8 = j) (k : Fin 1024) (q : Fin 64) :
    hB4 V c t (ix2 k q) = h4 V c (ix2 (gpos4 j hj k) q) := by
  obtain ⟨-, -, e10, e11, -⟩ := idxF4 t
  show V c (Pipeline.arrRef spec4 1) (((cfg4.win 1).blk t).view.emb (ix2 k q)) = V c (Pipeline.arrRef spec4 1) _
  refine congrArg _ (funext fun a => Fin.ext ?_)
  match a with
  | ⟨0, _⟩ => show win4_1.index t (0 : Fin 2) * 1024 + 1 * k.val = 1024 * j + k.val; omega
  | ⟨1, _⟩ => show win4_1.index t (1 : Fin 2) * 64 + 1 * q.val = q.val; omega

theorem drB4_apply (c : Dev nD) (t : Fin cfg4.N) (i : ℕ) (hi : i < 8) (hti : t.val / 8 = i) (p : Fin 1024) :
    drB4 V c t (ix2 p (0 : Fin 1)) = drow4 V c (ix2 (gpos4 i hi p) (0 : Fin 1)) := by
  obtain ⟨-, -, -, -, e20, e21, -⟩ := idxF4 t
  show V c (Pipeline.arrRef spec4 2) (((cfg4.win 2).blk t).view.emb (ix2 p (0 : Fin 1))) = V c (Pipeline.arrRef spec4 2) _
  refine congrArg _ (funext fun a => Fin.ext ?_)
  match a with
  | ⟨0, _⟩ => show win4_2.index t (0 : Fin 2) * 1024 + 1 * p.val = 1024 * i + p.val; omega
  | ⟨1, _⟩ => show win4_2.index t (1 : Fin 2) * 1 + 1 * 0 = 0; omega

theorem dcB4_apply (c : Dev nD) (t : Fin cfg4.N) (j : ℕ) (hj : j < 8) (htj : t.val % 8 = j) (k : Fin 1024) :
    dcB4 V c t (ix2 (0 : Fin 1) k) = dcol4 V c (ix2 (0 : Fin 1) (gpos4 j hj k)) := by
  obtain ⟨-, -, -, -, -, -, e30, e31, -⟩ := idxF4 t
  show V c (Pipeline.arrRef spec4 3) (((cfg4.win 3).blk t).view.emb (ix2 (0 : Fin 1) k)) = V c (Pipeline.arrRef spec4 3) _
  refine congrArg _ (funext fun a => Fin.ext ?_)
  match a with
  | ⟨0, _⟩ => show win4_3.index t (0 : Fin 2) * 1 + 1 * 0 = 0; omega
  | ⟨1, _⟩ => show win4_3.index t (1 : Fin 2) * 1024 + 1 * k.val = 1024 * j + k.val; omega

def term4 (c : Dev nD) (r : Fin 8192) (q : Fin 64) (k : Fin 8192) : EReal :=
  (drow4 V c (ix2 r (0 : Fin 1)) * Cert.Spec.mask (adj4 V c) r k * dcol4 V c (ix2 (0 : Fin 1) k)) * h4 V c (ix2 k q)

theorem blockSum4 (c : Dev nD) (t : Fin cfg4.N) (i j : ℕ) (hi : i < 8) (hj : j < 8) (hti : t.val / 8 = i) (htj : t.val % 8 = j)
    (acc : Vec Ideal S1024x64 .f32) (p : Fin 1024) (q : Fin 64) :
    k4_pay4 (grid4.coords t) (adjB4 V c t) (drB4 V c t) (dcB4 V c t) (hB4 V c t) acc (ix2 p q)
      = acc (ix2 p q) + ∑ k : Fin 1024, term4 V c (gpos4 i hi p) q (gpos4 j hj k) := by
  refine (pay4_4_apply (grid4.coords t) (adjB4 V c t) (drB4 V c t) (dcB4 V c t) (hB4 V c t) acc p q).trans ?_
  refine congrArg (acc (ix2 p q) + ·) (Finset.sum_congr rfl fun k _ => ?_)
  obtain ⟨-, -, -, -, -, -, -, -, -, -, ec0, ec1⟩ := idxF4 t
  rw [adjB4_apply V c t i j hi hj hti htj p k, hB4_apply V c t j hj htj k q, drB4_apply V c t i hi hti p, dcB4_apply V c t j hj htj k]
  have hcond : ((grid4.coords t 0).val * 1024 + p.val = (grid4.coords t 1).val * 1024 + k.val) ↔ (gpos4 i hi p = gpos4 j hj k) := by
    rw [ec0, ec1, hti, htj]; unfold gpos4; rw [Fin.mk.injEq]; omega
  unfold term4 Cert.Spec.mask
  rw [if_congr hcond rfl rfl]

theorem outsAt4_congr (c : Dev nD) (n m : ℕ) (hn : n < cfg4.N) (hm : m < cfg4.N) (h : n = m) :
    outsAt4 V c n hn = outsAt4 V c m hm := by subst h; rfl

def accAt4 (c : Dev nD) (i : ℕ) (p : Fin 1024) (q : Fin 64) : ℕ → EReal
  | 0 => 0
  | n + 1 => if h : 8 * i + n < cfg4.N then (outsAt4 V c (8 * i + n) h).2 (ix2 p q) else 0

theorem pay3_4_apply (p : Fin 1024) (q : Fin 64) : (k4_pay3 (F := Ideal)) (ix2 p q) = 0 :=
  Ideal.ofBits_zero_f32

theorem pay1_4_eq (x : FVec Ideal S1024x64 .f32) : k4_pay1 x = x := shapeCast_self x _

theorem pay2_4_apply (x : Vec Ideal S1024x64 .f32) (p : Fin 1024) (q : Fin 64) : k4_pay2 x (ix2 p q) = max (x (ix2 p q)) 0 := by
  show max (x (ix2 p q)) (Ideal.ofBits .f32 0x00000000#32) = _
  rw [Ideal.ofBits_zero_f32]

theorem accStep4 (c : Dev nD) (i : ℕ) (hi : i < 8) (p : Fin 1024) (q : Fin 64) (j : ℕ) (hj : j < 8) :
    accAt4 V c i p q (j + 1) = accAt4 V c i p q j + ∑ k : Fin 1024, term4 V c (gpos4 i hi p) q (gpos4 j hj k) := by
  have hN : cfg4.N = 64 := N_4
  have ht : 8 * i + j < cfg4.N := by rw [hN]; omega
  show (if h : 8 * i + j < cfg4.N then (outsAt4 V c (8 * i + j) h).2 (ix2 p q) else 0) = _
  rw [dif_pos ht]
  generalize htdef : (⟨8 * i + j, ht⟩ : Fin cfg4.N) = t
  have htv : t.val = 8 * i + j := by rw [← htdef]
  have hti : t.val / 8 = i := by omega
  have htj : t.val % 8 = j := by omega
  rw [outsAt4_congr V c (8 * i + j) t.val ht t.isLt htv.symm]
  cases j with
  | zero =>
    have h0 : t.val % 8 = 0 := htj
    have h1 : ¬t.val % 8 = 7 := by omega
    rw [outsAt4_A V c t h0 h1]; dsimp only
    refine (congrFun (sA4 (F := Ideal) c (grid4.coords t) (ms4_0 t) (hs4_0 t) (ms4_1 t) (hs4_1 t) (ms4_2 t) (hs4_2 t) (ms4_3 t) (hs4_3 t) (ms4_4 t) (hs4_4 t) scM4_0 (Memref.isWhole_whole _) ((hcond4_0 t).mpr h0) (fun h => h1 ((hcond4_1 t).mp h)) (adjB4 V c t) (hB4 V c t) (drB4 V c t) (dcB4 V c t)) (ix2 p q)).trans ?_
    rw [pay1_4_eq]
    refine (blockSum4 V c t i 0 hi hj hti htj _ p q).trans ?_
    rw [pay3_4_apply]
    rfl
  | succ j' =>
    have h0 : ¬t.val % 8 = 0 := by omega
    have hprev : 8 * i + j' < cfg4.N := by rw [hN]; omega
    have eprev : accAt4 V c i p q (j' + 1) = (outsAt4 V c (t.val - 1) (Nat.lt_of_le_of_lt (Nat.sub_le _ _) t.isLt)).2 (ix2 p q) := by
      show (if h : 8 * i + j' < cfg4.N then (outsAt4 V c (8 * i + j') h).2 (ix2 p q) else 0) = _
      rw [dif_pos hprev, outsAt4_congr V c (8 * i + j') (t.val - 1) hprev (Nat.lt_of_le_of_lt (Nat.sub_le _ _) t.isLt) (by omega)]
    rw [eprev]
    by_cases h1 : t.val % 8 = 7
    · rw [outsAt4_C V c t h0 h1]; dsimp only
      refine (congrFun (sC4 (F := Ideal) c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) ((hcond4_1 t).mpr h1) (adjB4 V c t) (hB4 V c t) (drB4 V c t) (dcB4 V c t) (outsAt4 V c (t.val - 1) (Nat.lt_of_le_of_lt (Nat.sub_le _ _) t.isLt)).2) (ix2 p q)).trans ?_
      rw [pay1_4_eq]
      exact blockSum4 V c t i (j' + 1) hi hj hti htj _ p q
    · rw [outsAt4_B V c t h0 h1]; dsimp only
      refine (congrFun (sB4 (F := Ideal) c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) (fun h => h1 ((hcond4_1 t).mp h)) (adjB4 V c t) (hB4 V c t) (drB4 V c t) (dcB4 V c t) (outsAt4 V c (t.val - 1) (Nat.lt_of_le_of_lt (Nat.sub_le _ _) t.isLt)).2) (ix2 p q)).trans ?_
      rw [pay1_4_eq]
      exact blockSum4 V c t i (j' + 1) hi hj hti htj _ p q

theorem accLast4 (c : Dev nD) (i : ℕ) (hi : i < 8) (p : Fin 1024) (q : Fin 64) (ht : 8 * i + 7 < cfg4.N) :
    (outsAt4 V c (8 * i + 7) ht).2 (ix2 p q) = ∑ k : Fin 8192, term4 V c (gpos4 i hi p) q k := by
  have hfold := Cert.LibBlockSum.sum_fin_mul_eq_fold 8 1024 (fun k : Fin (8 * 1024) => term4 V c (gpos4 i hi p) q k) (accAt4 V c i p q) rfl
    (fun j hj => accStep4 V c i hi p q j hj)
  refine Eq.trans ?_ hfold.symm
  show _ = (if h : 8 * i + 7 < cfg4.N then (outsAt4 V c (8 * i + 7) h).2 (ix2 p q) else 0)
  rw [dif_pos ht]

end AtIdeal

section Final

variable (V : (c : Dev nD) → (b : Ref sig .tc) → Buf (Elt Ideal) ((c : Thread nD τ).loc b))

def G4 (c : Dev nD) : Vec Ideal S8192x64 .f32 := fun y =>
  Cert.Spec.propWith (adj4 V c) (fun r => drow4 V c (ix2 r (0 : Fin 1))) (fun k => dcol4 V c (ix2 (0 : Fin 1) k)) (fun k q => h4 V c (ix2 k q))
    (⟨(y 0).val, idx2_lt0 y⟩ : Fin 8192) (⟨(y 1).val, idx2_lt1 y⟩ : Fin 64)

theorem outLast4 (c : Dev nD) (t : Fin cfg4.N) (h0 : ¬t.val % 8 = 0) (h1 : t.val % 8 = 7) :
    (outsAt4 V c t.val t.isLt).1 = k4_pay2 (outsAt4 V c t.val t.isLt).2 := by
  rw [outsAt4_C V c t h0 h1]; dsimp only
  rw [oC4 (F := Ideal) c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) ((hcond4_1 t).mpr h1) (adjB4 V c t) (hB4 V c t) (drB4 V c t) (dcB4 V c t) (outsAt4 V c (t.val - 1) (Nat.lt_of_le_of_lt (Nat.sub_le _ _) t.isLt)).2,
    sC4 (F := Ideal) c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) ((hcond4_1 t).mpr h1) (adjB4 V c t) (hB4 V c t) (drB4 V c t) (dcB4 V c t) (outsAt4 V c (t.val - 1) (Nat.lt_of_le_of_lt (Nat.sub_le _ _) t.isLt)).2]

theorem flushed4_eq (c : Dev nD) (t : Fin cfg4.N) (hf : (cfg4.win 4).flush t = true) :
    (dat4 V c).flushed 4 t = ((cfg4.win 4).blk t).view.read (Elt Ideal) (G4 V c) := by
  have hN : cfg4.N = 64 := N_4
  have hlt : t.val < 64 := lt_of_lt_of_eq t.isLt hN
  have h1 : t.val % 8 = 7 := (flush4_4 t).mp hf
  have h0 : ¬t.val % 8 = 0 := by omega
  have hi : t.val / 8 < 8 := by omega
  obtain ⟨-, -, -, -, -, -, -, -, e40, e41, -⟩ := idxF4 t
  show (cfg4.win 4).cut (grid4.coords t) ((dat4 V c).after 4 t) = _
  rw [after4_4, outLast4 V c t h0 h1]
  funext y
  obtain ⟨p, q, rfl⟩ : ∃ (p : Fin 1024) (q : Fin 64), y = ix2 p q := ⟨y 0, y 1, eq_ix2 y⟩
  refine (pay2_4_apply _ p q).trans ?_
  have h87 : 8 * (t.val / 8) + 7 < cfg4.N := lt_of_lt_of_eq (show 8 * (t.val / 8) + 7 < 64 by omega) hN.symm
  have hacc := accLast4 V c (t.val / 8) hi p q h87
  rw [outsAt4_congr V c t.val (8 * (t.val / 8) + 7) t.isLt h87 (by omega), hacc]
  show _ = Cert.Spec.propWith (adj4 V c) (fun r => drow4 V c (ix2 r (0 : Fin 1))) (fun k => dcol4 V c (ix2 (0 : Fin 1) k)) (fun k q => h4 V c (ix2 k q))
    (⟨(((cfg4.win 4).blk t).view.emb (ix2 p q) 0).val, _⟩ : Fin 8192) (⟨(((cfg4.win 4).blk t).view.emb (ix2 p q) 1).val, _⟩ : Fin 64)
  have er : (⟨(((cfg4.win 4).blk t).view.emb (ix2 p q) 0).val, idx2_lt0 _⟩ : Fin 8192) = gpos4 (t.val / 8) hi p := Fin.ext (by
    show win4_4.index t (0 : Fin 2) * 1024 + 1 * p.val = 1024 * (t.val / 8) + p.val; omega)
  have eq : (⟨(((cfg4.win 4).blk t).view.emb (ix2 p q) 1).val, idx2_lt1 _⟩ : Fin 64) = q := Fin.ext (by
    show win4_4.index t (1 : Fin 2) * 64 + 1 * q.val = q.val; omega)
  rw [er, eq]
  rfl

theorem mem_blk4 (t : Fin cfg4.N) (i : S8192x64.Idx) :
    i ∈ ((cfg4.win 4).blk t).view.set ↔ ∀ a : Fin 2, win4_4.index t a * S1024x64.size a ≤ (i a).val ∧ (i a).val < win4_4.index t a * S1024x64.size a + S1024x64.size a := by
  show i ∈ ((View.whole main_v7).slice (win4_4.rect t)).set ↔ _
  rw [View.set_slice_whole, Rect.mem_set_unit]
  exact Iff.rfl

theorem cover4 (i : S8192x64.Idx) : ∃ t : Fin cfg4.N, (cfg4.win 4).flush t = true ∧ i ∈ ((cfg4.win 4).blk t).view.set := by
  have hN : cfg4.N = 64 := N_4
  have hi0 : (i 0).val < 8192 := idx2_lt0 i
  have hi1 : (i 1).val < 64 := idx2_lt1 i
  have ht : 8 * ((i 0).val / 1024) + 7 < cfg4.N := by rw [hN]; omega
  refine ⟨⟨8 * ((i 0).val / 1024) + 7, ht⟩, (flush4_4 _).mpr (by show (8 * ((i 0).val / 1024) + 7) % 8 = 7; omega), ?_⟩
  obtain ⟨-, -, -, -, -, -, -, -, e40, e41, -⟩ := idxF4 ⟨8 * ((i 0).val / 1024) + 7, ht⟩
  rw [mem_blk4]
  intro a
  match a with
  | ⟨0, _⟩ =>
    show win4_4.index ⟨8 * ((i 0).val / 1024) + 7, ht⟩ (0 : Fin 2) * 1024 ≤ (i 0).val ∧ (i 0).val < win4_4.index ⟨8 * ((i 0).val / 1024) + 7, ht⟩ (0 : Fin 2) * 1024 + 1024
    rw [e40]; show (8 * ((i 0).val / 1024) + 7) / 8 * 1024 ≤ (i 0).val ∧ (i 0).val < (8 * ((i 0).val / 1024) + 7) / 8 * 1024 + 1024; omega
  | ⟨1, _⟩ =>
    show win4_4.index ⟨8 * ((i 0).val / 1024) + 7, ht⟩ (1 : Fin 2) * 64 ≤ (i 1).val ∧ (i 1).val < win4_4.index ⟨8 * ((i 0).val / 1024) + 7, ht⟩ (1 : Fin 2) * 64 + 64
    rw [e41]; omega

theorem final4 (c : Dev nD) (r : Fin 8192) (q : Fin 64) :
    ((dat4 (F := Ideal) V c).arrAt 4 cfg4.N : S8192x64.Idx → EReal) (ix2 r q)
      = Cert.Spec.propWith (adj4 V c) (fun r => drow4 V c (ix2 r (0 : Fin 1))) (fun k => dcol4 V c (ix2 (0 : Fin 1) k)) (fun k q => h4 V c (ix2 k q)) r q := by
  rw [(dat4 (F := Ideal) V c).arrAt_eq_of_cover 4 (G4 V c) (fun t hf => flushed4_eq V c t hf) (cover4)]
  rfl

end Final

end Cert.KernelIdeal.HandValue

end
-- ==== Proof.KI.Chain.lean ====
import proofs.«417937_j15461882266039_1_alg».proof.Proof.KI.Keep
import proofs.«417937_j15461882266039_1_alg».proof.Proof.KI.Tail
import proofs.«417937_j15461882266039_1_alg».proof.Proof.KI.Lin1Value
import proofs.«417937_j15461882266039_1_alg».proof.Proof.KI.Lin3Value
import proofs.«417937_j15461882266039_1_alg».proof.Proof.KI.Deg0Value
import proofs.«417937_j15461882266039_1_alg».proof.Proof.KI.Prop2Value
import proofs.«417937_j15461882266039_1_alg».proof.Proof.KI.Prop4Value
import proofs.«417937_j15461882266039_1_alg».proof.Proof.Spec

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

abbrev aAdj : FVec Ideal S8192x8192 .f32 := m ((c.tc : Thread nD τ).loc main_arg0)
abbrev aX : FVec Ideal S8192x512 .f32 := m ((c.tc : Thread nD τ).loc main_arg1)
abbrev aW1 : FVec Ideal S128x512 .f32 := m ((c.tc : Thread nD τ).loc main_arg2)
abbrev aB1 : FVec Ideal S128 .f32 := m ((c.tc : Thread nD τ).loc main_arg3)
abbrev aW2 : FVec Ideal S64x128 .f32 := m ((c.tc : Thread nD τ).loc main_arg4)
abbrev aB2 : FVec Ideal S64 .f32 := m ((c.tc : Thread nD τ).loc main_arg5)
abbrev aIdx : IVec S1024 32 := m ((c.tc : Thread nD τ).loc main_arg6)

-- the first region leaves the weights as a column
theorem col_deg (r : Fin 8192) :
    (Wv1 m ρ c (Proc.devRef .tc main_v0) : S8192x1.Idx → EReal) (ix2 r (0 : Fin 1)) = Cert.Spec.deg (aAdj m c) r :=
  (congrFun (Wv1_arr m ρ c 1) (ix2 r (0 : Fin 1))).trans (final0 (Vr0 m ρ) c r)

theorem row_deg (k : Fin 8192) :
    (Wv2 m ρ c (Proc.devRef .tc main_v1) : S1x8192.Idx → EReal) (ix2 (0 : Fin 1) k) = Cert.Spec.deg (aAdj m c) k :=
  (host1_v1 (Wv1 m ρ c) k).trans (col_deg m ρ c k)

-- the second region leaves the first linear layer of the arguments
theorem lin1_value (r : Fin 8192) (q : Fin 128) :
    (Wv3 m ρ c (Proc.devRef .tc main_v4) : S8192x128.Idx → EReal) (ix2 r q)
      = Cert.Spec.lin (fun r k => aX m c (ix2 r k)) (fun o k => aW1 m c (ix2 o k)) (fun o => aB1 m c (ix1 o)) r q := by
  refine (congrFun (Wv3_arr m ρ c 3) (ix2 r q)).trans ((final1 (Vr2 m ρ) c r q).trans ?_)
  have hx : xarr1 (Vr2 m ρ) c = aX m c := (Wv2_keep m ρ c main_arg1 (by decide)).trans (Wv1_keep m ρ c main_arg1 (by decide))
  have hw : warr1 (Vr2 m ρ) c = aW1 m c := (Wv2_keep m ρ c main_arg2 (by decide)).trans (Wv1_keep m ρ c main_arg2 (by decide))
  have hb : (fun o : Fin 128 => barr1 (Vr2 m ρ) c (ix2 (0 : Fin 1) o)) = fun o => aB1 m c (ix1 o) := funext fun o =>
    (host1_v2 (Wv1 m ρ c) o).trans (congrFun (Wv1_keep m ρ c main_arg3 (by decide)) (ix1 o))
  rw [hx, hw, hb]

-- the third region leaves the first propagation: a sum cut into eight column blocks is the sum
theorem prop2_value (r : Fin 8192) (q : Fin 128) :
    (Wv4 m ρ c (Proc.devRef .tc main_v5) : S8192x128.Idx → EReal) (ix2 r q)
      = Cert.Spec.prop (aAdj m c) (Cert.Spec.lin (fun r k => aX m c (ix2 r k)) (fun o k => aW1 m c (ix2 o k)) (fun o => aB1 m c (ix1 o))) r q := by
  refine (congrFun (Wv4_arr m ρ c 4) (ix2 r q)).trans ((final2 (Vr3 m ρ) c r q).trans ?_)
  have ha : adj2 (Vr3 m ρ) c = aAdj m c :=
    (Wv3_keep m ρ c main_arg0 (by decide)).trans ((Wv2_keep m ρ c main_arg0 (by decide)).trans (Wv1_keep m ρ c main_arg0 (by decide)))
  have hdr : (fun r : Fin 8192 => drow2 (Vr3 m ρ) c (ix2 r (0 : Fin 1))) = Cert.Spec.deg (aAdj m c) := funext fun r =>
    (congrFun ((Wv3_keep m ρ c main_v0 (by decide)).trans (Wv2_keep m ρ c main_v0 (by decide))) (ix2 r (0 : Fin 1))).trans (col_deg m ρ c r)
  have hdc : (fun k : Fin 8192 => dcol2 (Vr3 m ρ) c (ix2 (0 : Fin 1) k)) = Cert.Spec.deg (aAdj m c) := funext fun k =>
    (congrFun (Wv3_keep m ρ c main_v1 (by decide)) (ix2 (0 : Fin 1) k)).trans (row_deg m ρ c k)
  have hh : (fun (k : Fin 8192) (q : Fin 128) => h2 (Vr3 m ρ) c (ix2 k q))
      = Cert.Spec.lin (fun r k => aX m c (ix2 r k)) (fun o k => aW1 m c (ix2 o k)) (fun o => aB1 m c (ix1 o)) :=
    funext fun k => funext fun q => lin1_value m ρ c k q
  rw [ha, hdr, hdc, hh]
  rfl

theorem lin3_value (r : Fin 8192) (q : Fin 64) :
    (Wv5 m ρ c (Proc.devRef .tc main_v6) : S8192x64.Idx → EReal) (ix2 r q)
      = Cert.Spec.lin (Cert.Spec.prop (aAdj m c) (Cert.Spec.lin (fun r k => aX m c (ix2 r k)) (fun o k => aW1 m c (ix2 o k)) (fun o => aB1 m c (ix1 o))))
          (fun o k => aW2 m c (ix2 o k)) (fun o => aB2 m c (ix1 o)) r q := by
  refine (congrFun (Wv5_arr m ρ c 3) (ix2 r q)).trans ((final3 (Vr4 m ρ) c r q).trans ?_)
  have hx : (fun (r : Fin 8192) (k : Fin 128) => xarr3 (Vr4 m ρ) c (ix2 r k))
      = Cert.Spec.prop (aAdj m c) (Cert.Spec.lin (fun r k => aX m c (ix2 r k)) (fun o k => aW1 m c (ix2 o k)) (fun o => aB1 m c (ix1 o))) :=
    funext fun r => funext fun k => prop2_value m ρ c r k
  have hw : warr3 (Vr4 m ρ) c = aW2 m c :=
    (Wv4_keep m ρ c main_arg4 (by decide)).trans ((Wv3_keep m ρ c main_arg4 (by decide)).trans
      ((Wv2_keep m ρ c main_arg4 (by decide)).trans (Wv1_keep m ρ c main_arg4 (by decide))))
  have hb : (fun o : Fin 64 => barr3 (Vr4 m ρ) c (ix2 (0 : Fin 1) o)) = fun o => aB2 m c (ix1 o) := funext fun o =>
    (congrFun ((Wv4_keep m ρ c main_v3 (by decide)).trans (Wv3_keep m ρ c main_v3 (by decide))) (ix2 (0 : Fin 1) o)).trans
      ((host1_v3 (Wv1 m ρ c) o).trans (congrFun (Wv1_keep m ρ c main_arg5 (by decide)) (ix1 o)))
  rw [hx, hw, hb]

theorem prop4_value (r : Fin 8192) (q : Fin 64) :
    (Wv6 m ρ c (Proc.devRef .tc main_v7) : S8192x64.Idx → EReal) (ix2 r q)
      = Cert.Spec.net (aAdj m c) (fun r k => aX m c (ix2 r k)) (fun o k => aW1 m c (ix2 o k)) (fun o => aB1 m c (ix1 o))
          (fun o k => aW2 m c (ix2 o k)) (fun o => aB2 m c (ix1 o)) r q := by
  refine (congrFun (Wv6_arr m ρ c 4) (ix2 r q)).trans ((final4 (Vr5 m ρ) c r q).trans ?_)
  have ha : adj4 (Vr5 m ρ) c = aAdj m c :=
    (Wv5_keep m ρ c main_arg0 (by decide)).trans ((Wv4_keep m ρ c main_arg0 (by decide)).trans ((Wv3_keep m ρ c main_arg0 (by decide)).trans
      ((Wv2_keep m ρ c main_arg0 (by decide)).trans (Wv1_keep m ρ c main_arg0 (by decide)))))
  have hdr : (fun r : Fin 8192 => drow4 (Vr5 m ρ) c (ix2 r (0 : Fin 1))) = Cert.Spec.deg (aAdj m c) := funext fun r =>
    (congrFun ((Wv5_keep m ρ c main_v0 (by decide)).trans ((Wv4_keep m ρ c main_v0 (by decide)).trans
      ((Wv3_keep m ρ c main_v0 (by decide)).trans (Wv2_keep m ρ c main_v0 (by decide))))) (ix2 r (0 : Fin 1))).trans (col_deg m ρ c r)
  have hdc : (fun k : Fin 8192 => dcol4 (Vr5 m ρ) c (ix2 (0 : Fin 1) k)) = Cert.Spec.deg (aAdj m c) := funext fun k =>
    (congrFun ((Wv5_keep m ρ c main_v1 (by decide)).trans ((Wv4_keep m ρ c main_v1 (by decide)).trans
      (Wv3_keep m ρ c main_v1 (by decide)))) (ix2 (0 : Fin 1) k)).trans (row_deg m ρ c k)
  have hh : (fun (k : Fin 8192) (q : Fin 64) => h4 (Vr5 m ρ) c (ix2 k q))
      = Cert.Spec.lin (Cert.Spec.prop (aAdj m c) (Cert.Spec.lin (fun r k => aX m c (ix2 r k)) (fun o k => aW1 m c (ix2 o k)) (fun o => aB1 m c (ix1 o))))
          (fun o k => aW2 m c (ix2 o k)) (fun o => aB2 m c (ix1 o)) :=
    funext fun k => funext fun q => lin3_value m ρ c k q
  rw [ha, hdr, hdc, hh]
  rfl

-- for indices in range the last buffer holds the picked rows of the network
theorem kernel_value
    (hlo : ∀ i, IntOp.cmpi .sge (aIdx m c i) 0#32 = 1#1) (hhi : ∀ i, IntOp.cmpi .slt (aIdx m c i) 8192#32 = 1#1)
    (i : Fin 1024) (q : Fin 64) :
    (Wv7 m ρ c (Proc.devRef .tc main_v8) : S1024x64.Idx → EReal) (ix2 i q)
      = Cert.Spec.result (aAdj m c) (fun r k => aX m c (ix2 r k)) (fun o k => aW1 m c (ix2 o k)) (fun o => aB1 m c (ix1 o))
          (fun o k => aW2 m c (ix2 o k)) (fun o => aB2 m c (ix1 o)) (fun i => aIdx m c (ix1 i)) i q := by
  have hidx : (Wv6 m ρ c (Proc.devRef .tc main_arg6) : S1024.Idx → BitVec 32) = aIdx m c :=
    (Wv6_keep m ρ c main_arg6 (by decide)).trans ((Wv5_keep m ρ c main_arg6 (by decide)).trans ((Wv4_keep m ρ c main_arg6 (by decide)).trans
      ((Wv3_keep m ρ c main_arg6 (by decide)).trans ((Wv2_keep m ρ c main_arg6 (by decide)).trans (Wv1_keep m ρ c main_arg6 (by decide))))))
  refine (tail_value (Wv6 m ρ c) (fun i => by rw [hidx]; exact hlo i) (fun i => by rw [hidx]; exact hhi i) i q).trans ?_
  rw [hidx]
  exact prop4_value m ρ c _ q

end Cert.KernelIdeal.HandValue

end
-- ==== Proof.LibPointGather.lean ====
import Idealize.ShloMosaic.Lib.ValueIdx
import Idealize.ShloMosaic.Lib.Affine
import Idealize.ShloMosaic.Lib.Pipeline.Value
import Mathlib.Data.List.Nodup
import Mathlib.Data.List.FinRange

noncomputable section

namespace Cert.PointGather

open Idealize.ShloMosaic Idealize.ShloMosaic.ValueIdx

variable {α : Type}

section Fold
variable {ι κ : Type} [DecidableEq κ]

abbrev step (g : ι → Option κ) (f : α → α → α) (v : ι → α) (r : κ → α) (n : ι) : κ → α :=
  match g n with
  | some i => fun i' => if i' = i then f (r i) (v n) else r i'
  | none => r

theorem foldl_step_miss (g : ι → Option κ) (f : α → α → α) (v : ι → α) (i : κ) :
    ∀ (L : List ι) (x : κ → α), (∀ n ∈ L, g n ≠ some i) → L.foldl (step g f v) x i = x i
  | [], _, _ => rfl
  | a :: L, x, h => by
    rw [List.foldl_cons, foldl_step_miss g f v i L _ fun n hn => h n (List.mem_cons_of_mem _ hn)]
    have ha := h a List.mem_cons_self
    unfold step
    cases hg : g a with
    | none => rfl
    | some k =>
      have hne : i ≠ k := fun e => ha (by rw [hg, e])
      simp only [if_neg hne]

theorem foldl_step_hit (g : ι → Option κ) (f : α → α → α) (v : ι → α) (i : κ) (n : ι) (hn : g n = some i) :
    ∀ (L : List ι) (x : κ → α), L.Nodup → n ∈ L → (∀ m ∈ L, g m = some i → m = n) →
      L.foldl (step g f v) x i = f (x i) (v n)
  | [], _, _, h, _ => absurd h List.not_mem_nil
  | a :: L, x, hnd, hmem, huniq => by
    rw [List.foldl_cons]
    have hnd' := List.nodup_cons.1 hnd
    by_cases han : a = n
    · subst han
      rw [foldl_step_miss g f v i L _ fun m hm e => hnd'.1 (huniq m (List.mem_cons_of_mem _ hm) e ▸ hm)]
      unfold step
      simp only [hn, if_pos]
    · have hmem' : n ∈ L := (List.mem_cons.1 hmem).resolve_left fun e => han e.symm
      rw [foldl_step_hit g f v i n hn L _ hnd'.2 hmem' fun m hm => huniq m (List.mem_cons_of_mem _ hm)]
      congr 1
      unfold step
      cases hg : g a with
      | none => rfl
      | some k =>
        have hne : i ≠ k := fun e => han (huniq a List.mem_cons_self (by rw [hg, e]))
        simp only [if_neg hne]

end Fold

section Scatter
variable {s si u : Shape} {w : Nat}

theorem scatter_eq_foldl (d : ScatterDims s si u) (f : α → α → α) (x : s.Idx → α) (idx : IVec si w) (upd : u.Idx → α) :
    Host.scatter d f x idx upd
      = (List.finRange u.numel).foldl
          (step (fun n => d.resultIdx? (u.rowMajor.symm n) idx) f (fun n => upd (u.rowMajor.symm n))) x := by
  unfold Host.scatter
  congr 1
  funext r n
  unfold step
  beta_reduce
  generalize d.resultIdx? (u.rowMajor.symm n) idx = o
  cases o <;> rfl

theorem scatter_apply_miss (d : ScatterDims s si u) (f : α → α → α) (x : s.Idx → α) (idx : IVec si w) (upd : u.Idx → α)
    (i : s.Idx) (h : ∀ j, d.resultIdx? j idx ≠ some i) : Host.scatter d f x idx upd i = x i := by
  rw [scatter_eq_foldl]
  exact foldl_step_miss _ f _ i _ x fun n _ => h _

theorem scatter_apply_hit (d : ScatterDims s si u) (f : α → α → α) (x : s.Idx → α) (idx : IVec si w) (upd : u.Idx → α)
    (i : s.Idx) (j : u.Idx) (hj : d.resultIdx? j idx = some i) (huniq : ∀ j', d.resultIdx? j' idx = some i → j' = j) :
    Host.scatter d f x idx upd i = f (x i) (upd j) := by
  rw [scatter_eq_foldl]
  have := foldl_step_hit (fun n => d.resultIdx? (u.rowMajor.symm n) idx) f (fun n => upd (u.rowMajor.symm n)) i
    (u.rowMajor j) (by simpa using hj) (List.finRange u.numel) x (List.nodup_finRange _) (List.mem_finRange _)
    (fun m _ hm => by
      have := huniq _ hm
      rw [← this]; simp)
  simpa using this

end Scatter

section Point
variable {R C w : Nat}

abbrev scatterDims (R C : Nat) (wf : ScatterDims.WF ⟨2, ![R, C]⟩ ⟨2, ![R, 2]⟩ ⟨1, ![R]⟩ [] [0, 1] [0, 1] 1) :
    ScatterDims ⟨2, ![R, C]⟩ ⟨2, ![R, 2]⟩ ⟨1, ![R]⟩ where
  updateWindowDims := []
  insertedWindowDims := [0, 1]
  scatterDimsToOperandDims := [0, 1]
  indexVectorDim := 1
  wf := wf

theorem resultIdx?_of_pair (wf : ScatterDims.WF ⟨2, ![R, C]⟩ ⟨2, ![R, 2]⟩ ⟨1, ![R]⟩ [] [0, 1] [0, 1] 1)
    (idx : IVec ⟨2, ![R, 2]⟩ w) (r : Fin R) (l : Fin C)
    (h0 : (idx (ix2 r 0)).toInt = (r.val : Int)) (h1 : (idx (ix2 r 1)).toInt = (l.val : Int)) :
    (scatterDims R C wf).resultIdx? (ix1 r) idx = some (ix2 r l) := by
  have hw : ∀ a, (scatterDims R C wf).window (ix1 r) a = 0 := fun a => by
    unfold ScatterDims.window
    rw [dif_neg]
    show a ∉ (⟨2, ![R, C]⟩ : Shape).kept [0, 1]
    match a with
    | ⟨0, _⟩ => simp [Shape.kept]
    | ⟨1, _⟩ => simp [Shape.kept]
  have hs0 : (scatterDims R C wf).start (ix1 r) idx 0 = (r.val : Int) := by
    unfold ScatterDims.start
    rw [dif_pos (show (0 : Fin 2) ∈ (scatterDims R C wf).scatterDimsToOperandDims from List.mem_cons_self)]
    have hsi : (scatterDims R C wf).siIdx (ix1 r) ⟨List.idxOf (0 : Fin 2) (scatterDims R C wf).scatterDimsToOperandDims,
        List.idxOf_lt_length_iff.2 List.mem_cons_self⟩ = ix2 r 0 := by
      funext b; refine Fin.ext ?_
      match b with
      | ⟨0, _⟩ => rfl
      | ⟨1, _⟩ => rfl
    rw [hsi, h0]
  have hs1 : (scatterDims R C wf).start (ix1 r) idx 1 = (l.val : Int) := by
    unfold ScatterDims.start
    rw [dif_pos (show (1 : Fin 2) ∈ (scatterDims R C wf).scatterDimsToOperandDims from
      List.mem_cons_of_mem _ List.mem_cons_self)]
    have hsi : (scatterDims R C wf).siIdx (ix1 r) ⟨List.idxOf (1 : Fin 2) (scatterDims R C wf).scatterDimsToOperandDims,
        List.idxOf_lt_length_iff.2 (List.mem_cons_of_mem _ List.mem_cons_self)⟩ = ix2 r 1 := by
      funext b; refine Fin.ext ?_
      match b with
      | ⟨0, _⟩ => rfl
      | ⟨1, _⟩ => rfl
    rw [hsi, h1]
  have hr := r.isLt
  have hl := l.isLt
  unfold ScatterDims.resultIdx?
  rw [dif_pos (fun a => by
    match a with
    | ⟨0, _⟩ =>
      show (0 : Int) ≤ (scatterDims R C wf).start (ix1 r) idx 0 + ((scatterDims R C wf).window (ix1 r) 0 : Nat) ∧
        (scatterDims R C wf).start (ix1 r) idx 0 + ((scatterDims R C wf).window (ix1 r) 0 : Nat) < (R : Nat)
      rw [hw, hs0]; omega
    | ⟨1, _⟩ =>
      show (0 : Int) ≤ (scatterDims R C wf).start (ix1 r) idx 1 + ((scatterDims R C wf).window (ix1 r) 1 : Nat) ∧
        (scatterDims R C wf).start (ix1 r) idx 1 + ((scatterDims R C wf).window (ix1 r) 1 : Nat) < (C : Nat)
      rw [hw, hs1]; omega)]
  congr 1
  funext a
  refine Fin.ext ?_
  match a with
  | ⟨0, _⟩ => show ((scatterDims R C wf).start (ix1 r) idx 0 + ((scatterDims R C wf).window (ix1 r) 0 : Nat)).toNat = r.val; rw [hw, hs0]; simp
  | ⟨1, _⟩ => show ((scatterDims R C wf).start (ix1 r) idx 1 + ((scatterDims R C wf).window (ix1 r) 1 : Nat)).toNat = l.val; rw [hw, hs1]; simp

theorem scatter_apply (wf : ScatterDims.WF ⟨2, ![R, C]⟩ ⟨2, ![R, 2]⟩ ⟨1, ![R]⟩ [] [0, 1] [0, 1] 1)
    (f : α → α → α) (x : (⟨2, ![R, C]⟩ : Shape).Idx → α) (idx : IVec ⟨2, ![R, 2]⟩ w)
    (upd : (⟨1, ![R]⟩ : Shape).Idx → α) (l : Fin R → Fin C)
    (h0 : ∀ r, (idx (ix2 r 0)).toInt = (r.val : Int)) (h1 : ∀ r, (idx (ix2 r 1)).toInt = ((l r).val : Int))
    (r : Fin R) (j : Fin C) :
    Host.scatter (scatterDims R C wf) f x idx upd (ix2 r j)
      = if j = l r then f (x (ix2 r j)) (upd (ix1 r)) else x (ix2 r j) := by
  have hland : ∀ j' : (⟨1, ![R]⟩ : Shape).Idx,
      (scatterDims R C wf).resultIdx? j' idx = some (ix2 (j' 0) (l (j' 0))) := fun j' => by
    conv_lhs => rw [eq_ix1 j']
    exact resultIdx?_of_pair wf idx (j' 0) (l (j' 0)) (h0 _) (h1 _)
  by_cases hj : j = l r
  · rw [if_pos hj]
    subst hj
    refine scatter_apply_hit _ f x idx upd _ (ix1 r) (hland (ix1 r)) fun j' hj' => ?_
    rw [hland j'] at hj'
    have e := congrFun (Option.some.inj hj') 0
    rw [eq_ix1 j']
    exact congrArg ix1 e
  · rw [if_neg hj]
    refine scatter_apply_miss _ f x idx upd _ fun j' hj' => ?_
    rw [hland j'] at hj'
    have e0 : j' 0 = r := congrFun (Option.some.inj hj') 0
    have e1 : l (j' 0) = j := congrFun (Option.some.inj hj') 1
    exact hj (by rw [← e1, e0])

end Point

section Unsigned
variable {R C w : Nat}

theorem toInt_of_msb {k : Nat} (v : BitVec k) (h : v.msb = false) : v.toInt = (v.toNat : Int) := by
  rw [BitVec.toInt_eq_msb_cond, h]; simp

theorem scatter_point (wf : ScatterDims.WF ⟨2, ![R, C]⟩ ⟨2, ![R, 2]⟩ ⟨1, ![R]⟩ [] [0, 1] [0, 1] 1)
    (f : α → α → α) (x : (⟨2, ![R, C]⟩ : Shape).Idx → α) (idx : IVec ⟨2, ![R, 2]⟩ w)
    (upd : (⟨1, ![R]⟩ : Shape).Idx → α)
    (hrow : ∀ r : Fin R, (idx (ix2 r 0)).toNat = r.val) (hrowm : ∀ r : Fin R, (idx (ix2 r 0)).msb = false)
    (hcol : ∀ r : Fin R, (idx (ix2 r 1)).toNat < C) (hcolm : ∀ r : Fin R, (idx (ix2 r 1)).msb = false)
    (r : Fin R) (j : Fin C) :
    Host.scatter (scatterDims R C wf) f x idx upd (ix2 r j)
      = if j.val = (idx (ix2 r 1)).toNat then f (x (ix2 r j)) (upd (ix1 r)) else x (ix2 r j) := by
  rw [scatter_apply wf f x idx upd (fun r => ⟨(idx (ix2 r 1)).toNat, hcol r⟩)
    (fun r => by rw [toInt_of_msb _ (hrowm r), hrow r]) (fun r => toInt_of_msb _ (hcolm r)) r j]
  by_cases h : j.val = (idx (ix2 r 1)).toNat
  · rw [if_pos h, if_pos (Fin.ext h)]
  · rw [if_neg h, if_neg (fun e => h (congrArg Fin.val e))]

theorem scatter_point_set (wf : ScatterDims.WF ⟨2, ![R, C]⟩ ⟨2, ![R, 2]⟩ ⟨1, ![R]⟩ [] [0, 1] [0, 1] 1)
    (x : (⟨2, ![R, C]⟩ : Shape).Idx → α) (idx : IVec ⟨2, ![R, 2]⟩ w) (upd : (⟨1, ![R]⟩ : Shape).Idx → α)
    (hrow : ∀ r : Fin R, (idx (ix2 r 0)).toNat = r.val) (hrowm : ∀ r : Fin R, (idx (ix2 r 0)).msb = false)
    (hcol : ∀ r : Fin R, (idx (ix2 r 1)).toNat < C) (hcolm : ∀ r : Fin R, (idx (ix2 r 1)).msb = false)
    (r : Fin R) (j : Fin C) :
    Host.scatter (scatterDims R C wf) (fun _ b => b) x idx upd (ix2 r j)
      = if j.val = (idx (ix2 r 1)).toNat then upd (ix1 r) else x (ix2 r j) :=
  scatter_point wf (fun _ b => b) x idx upd hrow hrowm hcol hcolm r j

end Unsigned

section Pairs
variable {β : Type} {R : Nat}

theorem bcast_col_apply (hb : (⟨1, ![R]⟩ : Shape).BroadcastsInDim ⟨2, ![R, 1]⟩ ![0])
    (p : (⟨1, ![R]⟩ : Shape).Idx → β) (r : Fin R) :
    broadcastInDim ⟨2, ![R, 1]⟩ ![0] hb p (ix2 r 0) = p (ix1 r) := by
  simp only [broadcastInDim]
  congr 1
  funext a
  have ha : a = 0 := Subsingleton.elim _ _
  subst ha
  apply Fin.ext
  have hr := r.isLt
  split
  · next h1 => change R = 1 at h1; show (0 : Nat) = r.val; omega
  · rfl

theorem pairs_fst (hb hb' : (⟨1, ![R]⟩ : Shape).BroadcastsInDim ⟨2, ![R, 1]⟩ ![0])
    (hc : Shape.Concatenates [(⟨2, ![R, 1]⟩ : Shape), ⟨2, ![R, 1]⟩] ⟨2, ![R, 2]⟩ 1)
    (p q : (⟨1, ![R]⟩ : Shape).Idx → β) (r : Fin R) :
    concatenate ⟨2, ![R, 2]⟩ 1 [⟨⟨2, ![R, 1]⟩, broadcastInDim ⟨2, ![R, 1]⟩ ![0] hb p⟩,
      ⟨⟨2, ![R, 1]⟩, broadcastInDim ⟨2, ![R, 1]⟩ ![0] hb' q⟩] hc (ix2 r 0) = p (ix1 r) := by
  rw [concatenate_pair_apply_left 1 _ _ hc (ix2 r 0) rfl (ix2 r 0) (fun b => by
    match b with
    | ⟨0, _⟩ => rfl
    | ⟨1, _⟩ => rfl)]
  exact bcast_col_apply hb p r

theorem pairs_snd (hb hb' : (⟨1, ![R]⟩ : Shape).BroadcastsInDim ⟨2, ![R, 1]⟩ ![0])
    (hc : Shape.Concatenates [(⟨2, ![R, 1]⟩ : Shape), ⟨2, ![R, 1]⟩] ⟨2, ![R, 2]⟩ 1)
    (p q : (⟨1, ![R]⟩ : Shape).Idx → β) (r : Fin R) :
    concatenate ⟨2, ![R, 2]⟩ 1 [⟨⟨2, ![R, 1]⟩, broadcastInDim ⟨2, ![R, 1]⟩ ![0] hb p⟩,
      ⟨⟨2, ![R, 1]⟩, broadcastInDim ⟨2, ![R, 1]⟩ ![0] hb' q⟩] hc (ix2 r 1) = q (ix1 r) := by
  rw [concatenate_pair_apply_right 1 _ _ hc (ix2 r 1) rfl rfl (ix2 r 0) (fun b hb => by
    match b, hb with
    | ⟨0, _⟩, _ => rfl
    | ⟨1, _⟩, hb => exact absurd rfl hb) rfl]
  exact bcast_col_apply hb' q r

end Pairs

section Wrap

theorem wrap_of_msb {k : Nat} (v n : BitVec k) (h : v.msb = false) :
    Scalar.select (IntOp.cmpi .slt v 0#k) (IntOp.addi v n) v = v := by
  have hn : ¬IntOp.cmpi .slt v 0#k = 1#1 := by
    rw [IntOp.cmpi_slt, toInt_of_msb v h]
    simp
  rw [eq_zero_of_ne_one hn]
  exact select_zero _ _

theorem wrap_apply {s : Shape} {k : Nat} (zero n v : IVec s k) (i : s.Idx) (hz : zero i = 0#k)
    (h : (v i).msb = false) : select (cmpi .slt v zero) (addi v n) v i = v i := by
  show Scalar.select (IntOp.cmpi .slt (v i) (zero i)) (IntOp.addi (v i) (n i)) (v i) = v i
  rw [hz]
  exact wrap_of_msb _ _ h

theorem iota_word {R : Nat} (hR : R ≤ 2 ^ 31) (r : Fin R) :
    iotaInDim (⟨1, ![R]⟩ : Shape) 32 0 (ix1 r) = BitVec.ofNat 32 r.val
      ∧ (BitVec.ofNat 32 r.val).toNat = r.val ∧ (BitVec.ofNat 32 r.val).msb = false := by
  have hr := r.isLt
  have e : (BitVec.ofNat 32 r.val).toNat = r.val := by rw [BitVec.toNat_ofNat]; omega
  exact ⟨rfl, e, BitVec.msb_eq_false_iff_two_mul_lt.mpr (by rw [e]; omega)⟩

end Wrap

section Printed
variable {R C : Nat}

theorem scatter_set_pairs (wf : ScatterDims.WF ⟨2, ![R, C]⟩ ⟨2, ![R, 2]⟩ ⟨1, ![R]⟩ [] [0, 1] [0, 1] 1)
    (hb hb' : (⟨1, ![R]⟩ : Shape).BroadcastsInDim ⟨2, ![R, 1]⟩ ![0])
    (hc : Shape.Concatenates [(⟨2, ![R, 1]⟩ : Shape), ⟨2, ![R, 1]⟩] ⟨2, ![R, 2]⟩ 1)
    {w : Nat} (x : (⟨2, ![R, C]⟩ : Shape).Idx → α) (rows cols : IVec ⟨1, ![R]⟩ w)
    (upd : (⟨1, ![R]⟩ : Shape).Idx → α)
    (hr : ∀ r : Fin R, (rows (ix1 r)).toNat = r.val) (hrm : ∀ r : Fin R, (rows (ix1 r)).msb = false)
    (hl : ∀ r : Fin R, (cols (ix1 r)).toNat < C) (hlm : ∀ r : Fin R, (cols (ix1 r)).msb = false)
    (r : Fin R) (j : Fin C) :
    Host.scatter (scatterDims R C wf) (fun _ b => b) x
        (concatenate ⟨2, ![R, 2]⟩ 1 [⟨⟨2, ![R, 1]⟩, broadcastInDim ⟨2, ![R, 1]⟩ ![0] hb rows⟩,
          ⟨⟨2, ![R, 1]⟩, broadcastInDim ⟨2, ![R, 1]⟩ ![0] hb' cols⟩] hc) upd (ix2 r j)
      = if j.val = (cols (ix1 r)).toNat then upd (ix1 r) else x (ix2 r j) := by
  have e0 := fun r => pairs_fst hb hb' hc rows cols r
  have e1 := fun r => pairs_snd hb hb' hc rows cols r
  rw [scatter_point_set wf x _ upd (fun r => by rw [e0]; exact hr r) (fun r => by rw [e0]; exact hrm r)
    (fun r => by rw [e1]; exact hl r) (fun r => by rw [e1]; exact hlm r) r j, e1]

end Printed

end Cert.PointGather

end
-- ==== Proof.RefValue.lean ====
import proofs.«417937_j15461882266039_1_alg».proof.Proof.Gen.ReferenceIdeal.Run
import proofs.«417937_j15461882266039_1_alg».proof.Proof.Gen.ReferenceIdeal.Read
import proofs.«417937_j15461882266039_1_alg».proof.Proof.Spec
import proofs.«417937_j15461882266039_1_alg».proof.Proof.LibPointGather
import proofs.«417937_j15461882266039_1_alg».proof.Proof.LibRowGather

noncomputable section
open scoped BigOperators

namespace Cert.ReferenceIdeal.RefValue

open Cert.ReferenceIdeal Cert.ReferenceIdeal.Read Idealize.ShloMosaic Idealize.ShloMosaic.ValueIdx

variable [Facts]

theorem v8_apply (r : Fin 8192) :
    val_main_v8 (F := Ideal) (ix1 r) = BitVec.ofNat 32 r.val := by
  have hw := Cert.PointGather.iota_word (R := 8192) (by norm_num) r
  have h := Cert.PointGather.wrap_apply (val_main_v4 (F := Ideal)) (val_main_v6 (F := Ideal)) (val_main_v3 (F := Ideal))
    (ix1 r) ((val_main_v4_apply _).trans rfl) (by rw [val_main_v3_apply]; exact hw.2.2)
  exact h.trans (val_main_v3_apply _)

theorem v13_apply (r : Fin 8192) :
    val_main_v13 (F := Ideal) (ix1 r) = BitVec.ofNat 32 r.val := by
  have hw := Cert.PointGather.iota_word (R := 8192) (by norm_num) r
  have h := Cert.PointGather.wrap_apply (val_main_v9 (F := Ideal)) (val_main_v11 (F := Ideal)) (val_main_v3 (F := Ideal))
    (ix1 r) ((val_main_v9_apply _).trans rfl) (by rw [val_main_v3_apply]; exact hw.2.2)
  exact h.trans (val_main_v3_apply _)

theorem v18_apply (x0 : (⟨S8192x8192, .f32⟩ : BufTy).Contents (Elt Ideal)) (r k : Fin 8192) :
    val_main_v18 (F := Ideal) x0 (ix2 r k) = Cert.Spec.mask x0 r k := by
  have hw := fun r : Fin 8192 => Cert.PointGather.iota_word (R := 8192) (by norm_num) r
  have h := Cert.PointGather.scatter_set_pairs (R := 8192) (C := 8192)
    Facts₀.scatter_S8192x8192_S8192x2_S8192_n_01_01_1_wf Facts₀.bcast_S8192_S8192x1_0 Facts₀.bcast_S8192_S8192x1_0
    Facts₀.concatenates_S8192x1_S8192x1_S8192x2_d1 (val_main_v2 (F := Ideal) x0)
    (val_main_v8 (F := Ideal)) (val_main_v13 (F := Ideal)) (val_main_v17 (F := Ideal))
    (fun r => by rw [v8_apply]; exact (hw r).2.1) (fun r => by rw [v8_apply]; exact (hw r).2.2)
    (fun r => by rw [v13_apply, (hw r).2.1]; exact r.isLt) (fun r => by rw [v13_apply]; exact (hw r).2.2) r k
  unfold val_main_v18 val_main_v16 val_main_v14 val_main_v15
  refine h.trans ?_
  rw [v13_apply, (hw r).2.1]
  unfold Cert.Spec.mask
  by_cases e : r = k
  · subst e
    rw [if_pos rfl, if_pos rfl, val_main_v17_apply, val_main_cst_3_apply]
    rfl
  · rw [if_neg (fun h => e (Fin.ext h.symm)), if_neg e, val_main_v2_apply, val_main_v1_apply, val_main_v0_apply,
      val_main_cst_apply]
    rfl

theorem prop_apply {d : Nat} (adj : (⟨2, ![8192, 8192]⟩ : Shape).Idx → EReal) (H : Fin 8192 → Fin d → EReal)
    (r : Fin 8192) (c : Fin d) :
    Cert.Spec.prop adj H r c
      = max (∑ k : Fin 8192, (Cert.Spec.deg adj r * Cert.Spec.mask adj r k * Cert.Spec.deg adj k) * H k c) 0 := rfl

theorem v20_apply (x0 : (⟨S8192x8192, .f32⟩ : BufTy).Contents (Elt Ideal)) (r : Fin 8192) :
    val_main_v20 (F := Ideal) x0 (ix1 r) = Cert.Spec.deg x0 r := by
  rw [val_main_v20_apply, val_main_v19_apply, val_main_cst_4_apply]
  simp only [Ideal.hostUnary_rsqrt_def, Ideal.ofBits_def, Ideal.ofBits_zero_f32, zero_add]
  unfold Cert.Spec.deg
  refine congrArg Ideal.rsqrt (Finset.sum_congr rfl fun k _ => ?_)
  have e : idx_main_v19 (ix1 r) k = ix2 r k := funext fun a => Fin.ext (by match a with | ⟨0, _⟩ => rfl | ⟨1, _⟩ => rfl)
  rw [e, v18_apply]

theorem v26_apply (x0 : (⟨S8192x8192, .f32⟩ : BufTy).Contents (Elt Ideal)) (r k : Fin 8192) :
    val_main_v26 (F := Ideal) x0 (ix2 r k) = Cert.Spec.deg x0 r * Cert.Spec.mask x0 r k * Cert.Spec.deg x0 k := by
  rw [val_main_v26_apply, val_main_v23_apply, val_main_v22_apply, val_main_v21_apply, val_main_v25_apply,
    val_main_v24_apply]
  have e1 : idx_main_v21 (idx_main_v22 (ix2 r k)) = ix1 r := funext fun a => Fin.ext (by match a with | ⟨0, _⟩ => rfl)
  have e2 : idx_main_v24 (idx_main_v25 (ix2 r k)) = ix1 k := funext fun a => Fin.ext (by match a with | ⟨0, _⟩ => rfl)
  rw [e1, e2, v20_apply, v20_apply, v18_apply]
  simp only [Ideal.mulf_def]

theorem v31_apply (x1 : (⟨S8192x512, .f32⟩ : BufTy).Contents (Elt Ideal)) (x2 : (⟨S128x512, .f32⟩ : BufTy).Contents (Elt Ideal))
    (x3 : (⟨S128, .f32⟩ : BufTy).Contents (Elt Ideal)) (r : Fin 8192) (c : Fin 128) :
    val_main_v31 (F := Ideal) x1 x2 x3 (ix2 r c)
      = Cert.Spec.lin (fun r k => x1 (ix2 r k)) (fun o k => x2 (ix2 o k)) (fun o => x3 (ix1 o)) r c := by
  rw [val_main_v31_apply, val_main_v28_apply, val_main_v30_apply, val_main_v29_apply]
  have e3 : idx_main_v29 (idx_main_v30 (ix2 r c)) = ix1 c := funext fun a => Fin.ext (by match a with | ⟨0, _⟩ => rfl)
  rw [e3]
  simp only [Ideal.addf_def]
  unfold Cert.Spec.lin
  refine congrArg (· + _) (Finset.sum_congr rfl fun k _ => ?_)
  rw [val_main_v27_apply]
  have e1 : lidx_main_v28 (ix2 r c) k = ix2 r k := funext fun a => Fin.ext (by match a with | ⟨0, _⟩ => rfl | ⟨1, _⟩ => rfl)
  have e2 : idx_main_v27 (ridx_main_v28 (ix2 r c) k) = ix2 c k := funext fun a => Fin.ext (by match a with | ⟨0, _⟩ => rfl | ⟨1, _⟩ => rfl)
  rw [e1, e2]

theorem v33_apply (x0 : (⟨S8192x8192, .f32⟩ : BufTy).Contents (Elt Ideal)) (x1 : (⟨S8192x512, .f32⟩ : BufTy).Contents (Elt Ideal))
    (x2 : (⟨S128x512, .f32⟩ : BufTy).Contents (Elt Ideal)) (x3 : (⟨S128, .f32⟩ : BufTy).Contents (Elt Ideal))
    (r : Fin 8192) (c : Fin 128) :
    val_main_v33 (F := Ideal) x0 x1 x2 x3 (ix2 r c)
      = Cert.Spec.prop x0 (Cert.Spec.lin (fun r k => x1 (ix2 r k)) (fun o k => x2 (ix2 o k)) (fun o => x3 (ix1 o))) r c := by
  rw [val_main_v33_apply, val_main_v32_apply, val_main_call0_v0_apply, val_main_call0_cst_apply]
  simp only [Ideal.maximumf_def, Ideal.ofBits_def, Ideal.ofBits_zero_f32]
  rw [prop_apply]
  refine congrArg (max · 0) (Finset.sum_congr rfl fun k _ => ?_)
  have e1 : lidx_main_v32 (ix2 r c) k = ix2 r k := funext fun a => Fin.ext (by match a with | ⟨0, _⟩ => rfl | ⟨1, _⟩ => rfl)
  have e2 : ridx_main_v32 (ix2 r c) k = ix2 k c := funext fun a => Fin.ext (by match a with | ⟨0, _⟩ => rfl | ⟨1, _⟩ => rfl)
  rw [e1, e2, v26_apply, v31_apply]

theorem v38_apply (x0 : (⟨S8192x8192, .f32⟩ : BufTy).Contents (Elt Ideal)) (x1 : (⟨S8192x512, .f32⟩ : BufTy).Contents (Elt Ideal))
    (x2 : (⟨S128x512, .f32⟩ : BufTy).Contents (Elt Ideal)) (x3 : (⟨S128, .f32⟩ : BufTy).Contents (Elt Ideal))
    (x4 : (⟨S64x128, .f32⟩ : BufTy).Contents (Elt Ideal)) (x5 : (⟨S64, .f32⟩ : BufTy).Contents (Elt Ideal))
    (r : Fin 8192) (c : Fin 64) :
    val_main_v38 (F := Ideal) x0 x1 x2 x3 x4 x5 (ix2 r c)
      = Cert.Spec.lin (Cert.Spec.prop x0 (Cert.Spec.lin (fun r k => x1 (ix2 r k)) (fun o k => x2 (ix2 o k)) (fun o => x3 (ix1 o))))
          (fun o k => x4 (ix2 o k)) (fun o => x5 (ix1 o)) r c := by
  rw [val_main_v38_apply, val_main_v35_apply, val_main_v37_apply, val_main_v36_apply]
  have e3 : idx_main_v36 (idx_main_v37 (ix2 r c)) = ix1 c := funext fun a => Fin.ext (by match a with | ⟨0, _⟩ => rfl)
  rw [e3]
  simp only [Ideal.addf_def]
  unfold Cert.Spec.lin
  refine congrArg (· + _) (Finset.sum_congr rfl fun k _ => ?_)
  rw [val_main_v34_apply]
  have e1 : lidx_main_v35 (ix2 r c) k = ix2 r k := funext fun a => Fin.ext (by match a with | ⟨0, _⟩ => rfl | ⟨1, _⟩ => rfl)
  have e2 : idx_main_v34 (ridx_main_v35 (ix2 r c) k) = ix2 c k := funext fun a => Fin.ext (by match a with | ⟨0, _⟩ => rfl | ⟨1, _⟩ => rfl)
  rw [e1, e2, v33_apply]
  rfl

theorem ref_net (x0 : (⟨S8192x8192, .f32⟩ : BufTy).Contents (Elt Ideal)) (x1 : (⟨S8192x512, .f32⟩ : BufTy).Contents (Elt Ideal))
    (x2 : (⟨S128x512, .f32⟩ : BufTy).Contents (Elt Ideal)) (x3 : (⟨S128, .f32⟩ : BufTy).Contents (Elt Ideal))
    (x4 : (⟨S64x128, .f32⟩ : BufTy).Contents (Elt Ideal)) (x5 : (⟨S64, .f32⟩ : BufTy).Contents (Elt Ideal))
    (r : Fin 8192) (q : Fin 64) :
    Cert.ReferenceIdeal.Read.val_main_v40 (F := Ideal) x0 x1 x2 x3 x4 x5 (ix2 r q)
      = Cert.Spec.net x0 (fun r k => x1 (ix2 r k)) (fun o k => x2 (ix2 o k)) (fun o => x3 (ix1 o))
          (fun o k => x4 (ix2 o k)) (fun o => x5 (ix1 o)) r q := by
  rw [val_main_v40_apply, val_main_v39_apply, val_main_call1_v0_apply, val_main_call1_cst_apply]
  simp only [Ideal.maximumf_def, Ideal.ofBits_def, Ideal.ofBits_zero_f32]
  unfold Cert.Spec.net
  rw [prop_apply]
  refine congrArg (max · 0) (Finset.sum_congr rfl fun k _ => ?_)
  have e1 : lidx_main_v39 (ix2 r q) k = ix2 r k := funext fun a => Fin.ext (by match a with | ⟨0, _⟩ => rfl | ⟨1, _⟩ => rfl)
  have e2 : ridx_main_v39 (ix2 r q) k = ix2 k q := funext fun a => Fin.ext (by match a with | ⟨0, _⟩ => rfl | ⟨1, _⟩ => rfl)
  rw [e1, e2, v26_apply, v38_apply]

theorem row_of_word (w : BitVec 32) (hlo : (0#32 : BitVec 32).toInt ≤ w.toInt) (hhi : w.toInt < (8192#32 : BitVec 32).toInt) :
    min w.toInt.toNat (8192 - 1) = w.toNat % 8192 := by
  have h0 : (0#32 : BitVec 32).toInt = 0 := by decide
  have h1 : (8192#32 : BitVec 32).toInt = 8192 := by decide
  rw [h0] at hlo
  rw [h1] at hhi
  have hw := w.isLt
  have e : w.toInt = (w.toNat : Int) := by
    rw [BitVec.toInt_eq_toNat_cond] at hlo ⊢
    split
    · rfl
    · rename_i hc
      rw [if_neg hc] at hlo
      omega
  rw [e] at hhi ⊢
  omega

theorem v46_apply (x6 : (⟨S1024, .i32⟩ : BufTy).Contents (Elt Ideal))
    (hlo : ∀ i, IntOp.cmpi .sge (x6 i) 0#32 = 1#1) (i : Fin 1024) :
    val_main_v46 (F := Ideal) x6 (ix2 i (0 : Fin 1)) = x6 (ix1 i) := by
  rw [val_main_v46_apply]
  have e : idx_main_v46 (ix2 i (0 : Fin 1)) = ix1 i := funext fun a => Fin.ext (by match a with | ⟨0, _⟩ => rfl)
  rw [e, val_main_v45_apply, val_main_v42_apply, val_main_v41_apply, val_main_c_5_apply]
  have hn : ¬IntOp.cmpi .slt (x6 (ix1 i)) 0#32 = 1#1 := by
    have h := hlo (ix1 i)
    rw [IntOp.cmpi_sge] at h
    rw [IntOp.cmpi_slt]
    exact not_lt.mpr h
  rw [eq_zero_of_ne_one hn]
  exact select_zero _ _

-- the reference's stages, read entry by entry, compute the same network
theorem ref_value (x0 : (⟨S8192x8192, .f32⟩ : BufTy).Contents (Elt Ideal)) (x1 : (⟨S8192x512, .f32⟩ : BufTy).Contents (Elt Ideal))
    (x2 : (⟨S128x512, .f32⟩ : BufTy).Contents (Elt Ideal)) (x3 : (⟨S128, .f32⟩ : BufTy).Contents (Elt Ideal))
    (x4 : (⟨S64x128, .f32⟩ : BufTy).Contents (Elt Ideal)) (x5 : (⟨S64, .f32⟩ : BufTy).Contents (Elt Ideal))
    (x6 : (⟨S1024, .i32⟩ : BufTy).Contents (Elt Ideal))
    (hlo : ∀ i, IntOp.cmpi .sge (x6 i) 0#32 = 1#1) (hhi : ∀ i, IntOp.cmpi .slt (x6 i) 8192#32 = 1#1)
    (i : Fin 1024) (q : Fin 64) :
    Cert.ReferenceIdeal.Read.val_main_v47 (F := Ideal) x0 x1 x2 x3 x4 x5 x6 (ix2 i q)
      = Cert.Spec.result x0 (fun r k => x1 (ix2 r k)) (fun o k => x2 (ix2 o k)) (fun o => x3 (ix1 o))
          (fun o k => x4 (ix2 o k)) (fun o => x5 (ix1 o)) (fun i => x6 (ix1 i)) i q := by
  unfold val_main_v47
  generalize hy : val_main_v40 (F := Ideal) x0 x1 x2 x3 x4 x5 = y
  have h := Cert.LibRowGather.rowGather2_apply (N := 8192) (B := 64) (R := 1024) (by norm_num)
    Facts₀.gather_S8192x64_S1024x1_S1024x64_1_0_n_n_0_1_164_wf y (val_main_v46 (F := Ideal) x6) i q
  refine h.trans ?_
  subst hy
  unfold Cert.Spec.result
  rw [← ref_net]
  refine congrArg (fun a : Fin 8192 => val_main_v40 (F := Ideal) x0 x1 x2 x3 x4 x5 (ix2 a q)) (Fin.ext ?_)
  show min (val_main_v46 (F := Ideal) x6 (ix2 i (0 : Fin 1))).toInt.toNat (8192 - 1) = (x6 (ix1 i)).toNat % 8192
  rw [v46_apply x6 hlo i]
  exact row_of_word _ (IntOp.cmpi_sge.mp (hlo (ix1 i))) (IntOp.cmpi_slt.mp (hhi (ix1 i)))

end Cert.ReferenceIdeal.RefValue
end
-- ==== Proof.PreIdx.lean ====
import proofs.«417937_j15461882266039_1_alg».proof.Pre_finite_inputs
import proofs.«417937_j15461882266039_1_alg».proof.Proof.Gen.Pre_finite_inputs
import Idealize.ShloMosaic.Lib.ReduceAll
import Idealize.ShloMosaic.Lib.ValueIdx

noncomputable section

namespace Cert.PreIdx

open Idealize.ShloMosaic Idealize.ShloMosaic.ValueIdx
open Cert.Pre_finite_inputs

instance : Subsingleton S_.Idx := ⟨fun a b => funext fun d => d.elim0⟩

-- the precondition puts every index between 0 and 8191
theorem idx_of_pre {F : FTy → Type} [FloatOps F] [Cert.Pre_finite_inputs.Facts]
    (a0 : FVec F S8192x8192 .f32) (a1 : FVec F S8192x512 .f32) (a2 : FVec F S128x512 .f32) (a3 : FVec F S128 .f32)
    (a4 : FVec F S64x128 .f32) (a5 : FVec F S64 .f32) (a6 : IVec S1024 32)
    (h : Cert.Pre_finite_inputs.fn (F := F) a0 a1 a2 a3 a4 a5 a6 = fun _ => 1#1) :
    (∀ i, IntOp.cmpi .sge (a6 i) 0#32 = 1#1) ∧ (∀ i, IntOp.cmpi .slt (a6 i) 8192#32 = 1#1) := by
  have e := congrFun h ix0
  dsimp only [Cert.Pre_finite_inputs.fn, Cert.Pre_finite_inputs.fn_part1, Cert.Pre_finite_inputs.fn_part2] at e
  obtain ⟨e32, e35⟩ := IntOp.andi_eq_one.1 e
  obtain ⟨-, e31⟩ := IntOp.andi_eq_one.1 e32
  exact ⟨fun i => Host.reduce_andi_all _ _ _ _ _ e31 i, fun i => Host.reduce_andi_all _ _ _ _ _ e35 i⟩

end Cert.PreIdx

end
-- ==== Proof.lean ====
import proofs.«417937_j15461882266039_1_alg».proof.Defs
import proofs.«417937_j15461882266039_1_alg».proof.Proof.Gen.Kernel
import proofs.«417937_j15461882266039_1_alg».proof.Proof.Gen.KernelIdeal
import proofs.«417937_j15461882266039_1_alg».proof.Proof.Gen.ReferenceIdeal
import proofs.«417937_j15461882266039_1_alg».proof.Proof.Gen.Pre_finite_inputs
import proofs.«417937_j15461882266039_1_alg».proof.Proof.Gen.ReferenceIdeal.Run
import proofs.«417937_j15461882266039_1_alg».proof.Proof.Gen.ReferenceIdeal.Read
import proofs.«417937_j15461882266039_1_alg».proof.Proof.Same
import proofs.«417937_j15461882266039_1_alg».proof.Proof.KI.Chain
import proofs.«417937_j15461882266039_1_alg».proof.Proof.RefValue
import proofs.«417937_j15461882266039_1_alg».proof.Proof.PreIdx
import Idealize.ShloMosaic.Adequacy
import Idealize.ShloMosaic.Init

noncomputable section

namespace Cert.Proof

open Idealize.ShloMosaic Idealize.ShloMosaic.TcCoe Idealize.SL.Sem Idealize.ShloMosaic.ValueIdx

theorem frame_ki : Cert.frame_KernelIdeal := fun m ρ _ =>
  (θ_run Cert.KernelIdeal.defs _ _).mono (fun _ h c => ⟨h c Cert.KernelIdeal.main_arg0 (by decide), h c Cert.KernelIdeal.main_arg1 (by decide), h c Cert.KernelIdeal.main_arg2 (by decide), h c Cert.KernelIdeal.main_arg3 (by decide), h c Cert.KernelIdeal.main_arg4 (by decide), h c Cert.KernelIdeal.main_arg5 (by decide), h c Cert.KernelIdeal.main_arg6 (by decide)⟩) (Cert.KernelIdeal.Hand.frame_all m ρ)

-- the word-level program is the same text as its idealization, whose frame holds at every instance
theorem frame_k : Cert.frame_Kernel := fun m ρ _ =>
  (θ_run Cert.Kernel.defs _ _).mono (fun _ h c => ⟨h c Cert.Kernel.main_arg0 (by decide), h c Cert.Kernel.main_arg1 (by decide), h c Cert.Kernel.main_arg2 (by decide), h c Cert.Kernel.main_arg3 (by decide), h c Cert.Kernel.main_arg4 (by decide), h c Cert.Kernel.main_arg5 (by decide), h c Cert.Kernel.main_arg6 (by decide)⟩) (Cert.Same.frame (fun m ρ => Cert.KernelIdeal.Hand.frame_all m ρ) m ρ)

theorem frame_ri : Cert.frame_ReferenceIdeal := fun m ρ _ =>
  (θ_run Cert.ReferenceIdeal.defs _ _).mono (fun _ h c => (h c).2) (Cert.ReferenceIdeal.Value.run (F := Ideal) m ρ)

-- both programs end with the picked rows of the two-layer network, entry by entry
theorem algebraic : Cert.algebraic_KernelIdeal_ReferenceIdeal := by
  intro m ρ m' ρ' hpre hagree
  refine ⟨fun c => Cert.KernelIdeal.Hand.Wv7 (F := Ideal) m ρ c (Proc.devRef .tc Cert.KernelIdeal.main_v8), ?_, ?_⟩
  · exact (θ_run Cert.KernelIdeal.defs _ _).mono (fun _ h c =>
      ⟨h c _ (Cert.KernelIdeal.Hand.mem_uc Cert.KernelIdeal.main_v8 (by decide)),
       (h c _ (Cert.KernelIdeal.Hand.mem_uc Cert.KernelIdeal.main_arg0 (by decide))).trans (Cert.KernelIdeal.Hand.Wv7_arg m ρ c _ (by decide)),
       (h c _ (Cert.KernelIdeal.Hand.mem_uc Cert.KernelIdeal.main_arg1 (by decide))).trans (Cert.KernelIdeal.Hand.Wv7_arg m ρ c _ (by decide)),
       (h c _ (Cert.KernelIdeal.Hand.mem_uc Cert.KernelIdeal.main_arg2 (by decide))).trans (Cert.KernelIdeal.Hand.Wv7_arg m ρ c _ (by decide)),
       (h c _ (Cert.KernelIdeal.Hand.mem_uc Cert.KernelIdeal.main_arg3 (by decide))).trans (Cert.KernelIdeal.Hand.Wv7_arg m ρ c _ (by decide)),
       (h c _ (Cert.KernelIdeal.Hand.mem_uc Cert.KernelIdeal.main_arg4 (by decide))).trans (Cert.KernelIdeal.Hand.Wv7_arg m ρ c _ (by decide)),
       (h c _ (Cert.KernelIdeal.Hand.mem_uc Cert.KernelIdeal.main_arg5 (by decide))).trans (Cert.KernelIdeal.Hand.Wv7_arg m ρ c _ (by decide)),
       (h c _ (Cert.KernelIdeal.Hand.mem_uc Cert.KernelIdeal.main_arg6 (by decide))).trans (Cert.KernelIdeal.Hand.Wv7_arg m ρ c _ (by decide))⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    obtain ⟨hlo, hhi⟩ := Cert.PreIdx.idx_of_pre _ _ _ _ _ _ _ (hpre c)
    rw [Cert.ReferenceIdeal.Read.val_main_v47_eq, (hagree c).1, (hagree c).2.1, (hagree c).2.2.1, (hagree c).2.2.2.1,
      (hagree c).2.2.2.2.1, (hagree c).2.2.2.2.2.1, (hagree c).2.2.2.2.2.2]
    funext j
    obtain ⟨i, q, rfl⟩ : ∃ (i : Fin 1024) (q : Fin 64), j = ix2 i q := ⟨j 0, j 1, eq_ix2 j⟩
    rw [Cert.ReferenceIdeal.RefValue.ref_value _ _ _ _ _ _ _ hlo hhi i q]
    exact (Cert.KernelIdeal.HandValue.kernel_value m ρ c hlo hhi i q).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
